-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S512x128 : Shape := ⟨2, ![512, 128]⟩
abbrev S2000x128 : Shape := ⟨2, ![2000, 128]⟩
abbrev S2000x1 : Shape := ⟨2, ![2000, 1]⟩
abbrev S1x512 : Shape := ⟨2, ![1, 512]⟩
abbrev S2000x512 : Shape := ⟨2, ![2000, 512]⟩
abbrev S512x2000 : Shape := ⟨2, ![512, 2000]⟩

abbrev nBuf : Space → Nat
  | .hbm => 104
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x1, .f32⟩
  | .hbm, ⟨74, _⟩ => ⟨S1700000x128, .f32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S1700000x1, .f32⟩
  | .hbm, ⟨93, _⟩ => ⟨S1700000x128, .f32⟩
  | .hbm, ⟨94, _⟩ => ⟨S1700000x128, .f32⟩
  | .hbm, ⟨95, _⟩ => ⟨S_, .f32⟩
  | .hbm, ⟨96, _⟩ => ⟨S100000x128, .f32⟩
  | .hbm, ⟨97, _⟩ => ⟨S1700000x1, .i32⟩
  | .hbm, ⟨98, _⟩ => ⟨S100000x128, .f32⟩
  | .hbm, ⟨99, _⟩ => ⟨S1x128, .f32⟩
  | .hbm, ⟨100, _⟩ => ⟨S100000x128, .f32⟩
  | .hbm, ⟨101, _⟩ => ⟨S100000x1, .i32⟩
  | .hbm, ⟨102, _⟩ => ⟨S1x128, .f32⟩
  | .hbm, ⟨103, _⟩ => ⟨S512x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S2000x128, .f32⟩
  | .local _ .vmem, ⟨31, _⟩ => ⟨S2000x128, .f32⟩
  | .local _ .vmem, ⟨32, _⟩ => ⟨S2000x1, .i32⟩
  | .local _ .vmem, ⟨33, _⟩ => ⟨S2000x1, .i32⟩
  | .local _ .vmem, ⟨34, _⟩ => ⟨S128x128, .f32⟩
  | .local _ .vmem, ⟨35, _⟩ => ⟨S1x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_c_10 : Ref sig .tc := ⟨.hbm, 83, rfl⟩
abbrev main_v60 : Ref sig .tc := ⟨.hbm, 84, rfl⟩
abbrev main_v61 : Ref sig .tc := ⟨.hbm, 85, rfl⟩
abbrev main_c_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc6_stg4_0 : Ref sig .tc := ⟨.vmem, 36, rfl⟩
abbrev cc6_scratch0 : Ref sig .tc := ⟨.vmem, 37, rfl⟩
abbrev cc6_scratch1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35
abbrev cc6_sem4_0 : DmaSem sig := 36

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def k6_cond2 (i : grid6.Coords) : BitVec 1 :=
  let arg0 : BitVec 32 := BitVec.ofNat 32 (i 0).val
  let c49_i32 : BitVec 32 := 49#32
  let v30 : BitVec 1 := Scalar.cmpi .eq arg0 c49_i32
  let v31 : BitVec 32 := Scalar.extui v30
  let c0_i32_14 : BitVec 32 := 0#32
  let v32 : BitVec 1 := Scalar.cmpi .ne v31 c0_i32_14
  v32

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S512x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S1x512_d1_w32 : S1x512.Iotas .tc 32 [1]
  broadcasts_S2000x1_S2000x512 : S2000x1.Broadcasts S2000x512
  broadcasts_S1x512_S2000x512 : S1x512.Broadcasts S2000x512
  natLt_1_32 : 1 < 32
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  transposes_S2000x512_p1_0_S512x2000 : S2000x512.Transposes [1, 0] S512x2000
  broadcasts_S1x128_S512x128 : S1x128.Broadcasts S512x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S512x2000_S2000x128_S512x128_1_0_0_1_n_n_wf : DotDims.WF S512x2000 S2000x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S512x128.size a ≤ S512x128.size a
  hwx6_4 : ∀ i : grid6.Coords, EltTy.bits .f32 = 32 ∨ (Rect.block (s := S512x128) S512x128.size (cc6_transform_4 i) (hinb6_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S512x2000_S2000x128_S512x128_1_0_0_1_n_n : DotDims S512x2000 S2000x128 S512x128 where
  lhsContracting := [1]
  rhsContracting := [0]
  lhsNonContracting := [0]
  rhsNonContracting := [1]
  lhsBatch := []
  rhsBatch := []
  wf := dot_S512x2000_S2000x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v75) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v76) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v77) S512x128.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S100000, .f32⟩
  | 25 => ⟨S_, .i32⟩
  | 26 => ⟨S1700000, .i32⟩
  | 27 => ⟨S1700000, .i1⟩
  | 28 => ⟨S_, .i32⟩
  | 29 => ⟨S1700000, .i32⟩
  | 30 => ⟨S1700000, .i32⟩
  | 31 => ⟨S1700000, .i32⟩
  | 32 => ⟨S1700000x1, .i32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S1700000, .f32⟩
  | 44 => ⟨S100000x128, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000x128, .f32⟩
  | 54 => ⟨S1700000x1, .f32⟩
  | 55 => ⟨S1700000x128, .f32⟩
  | 56 => ⟨S1700000x128, .f32⟩
  | 57 => ⟨S_, .f32⟩
  | 58 => ⟨S100000x128, .f32⟩
  | 59 => ⟨S1700000x1, .i32⟩
  | 60 => ⟨S100000x128, .f32⟩
  | 61 => ⟨S1x128, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S_, .i32⟩
  | 69 => ⟨S1700000, .i32⟩
  | 70 => ⟨S1700000, .i1⟩
  | 71 => ⟨S_, .i32⟩
  | 72 => ⟨S1700000, .i32⟩
  | 73 => ⟨S1700000, .i32⟩
  | 74 => ⟨S1700000, .i32⟩
  | 75 => ⟨S1700000x1, .i32⟩
  | 76 => ⟨S1700000x128, .f32⟩
  | 77 => ⟨S1700000x1, .f32⟩
  | 78 => ⟨S1700000x128, .f32⟩
  | 79 => ⟨S1700000x128, .f32⟩
  | 80 => ⟨S_, .f32⟩
  | 81 => ⟨S100000x128, .f32⟩
  | 82 => ⟨S1700000x1, .i32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S100000x128, .f32⟩
  | 109 => ⟨S100000x128, .f32⟩
  | 110 => ⟨S_, .f32⟩
  | 111 => ⟨S512x128, .f32⟩
  | 112 => ⟨S100000x1, .i32⟩
  | 113 => ⟨S512x128, .f32⟩
  | 114 => ⟨S_, .f32⟩
  | 115 => ⟨S100000, .f32⟩
  | 116 => ⟨S_, .f32⟩
  | 117 => ⟨S512, .f32⟩
  | 118 => ⟨S100000x1, .i32⟩
  | 119 => ⟨S512, .f32⟩
  | 120 => ⟨S_, .f32⟩
  | 121 => ⟨S512, .f32⟩
  | 122 => ⟨S512, .f32⟩
  | 123 => ⟨S512x1, .f32⟩
  | 124 => ⟨S512x128, .f32⟩
  | 125 => ⟨S512x128, .f32⟩
  | 126 => ⟨S512x128, .f32⟩
  | 127 => ⟨S1x128, .f32⟩
  | _ => ⟨S100000x128, .f32⟩

abbrev hbmTy0_1 (i : Nat) : BufTy := match i % 128 with
  | 0 => ⟨S512x128, .f32⟩
  | 1 => ⟨S512x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_call0_cst : Ref sig .tc := ⟨.hbm, 64, rfl⟩
abbrev main_call0_v0 : Ref sig .tc := ⟨.hbm, 65, rfl⟩
abbrev main_v44 : Ref sig .tc := ⟨.hbm, 66, rfl⟩
abbrev main_v45 : Ref sig .tc := ⟨.hbm, 67, rfl⟩
abbrev main_c_7 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_13 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_14 : Ref sig .tc := ⟨.hbm, 114, rfl⟩
abbrev main_v83 : Ref sig .tc := ⟨.hbm, 115, rfl⟩
abbrev main_cst_15 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_16 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

class Facts : Prop extends Facts₀ where

variable [Facts]
-- ==== Proof.Frame.RegLib.lean ====
import proofs.«407712_j30391188586951_1_alg».proof.Proof.Gen.KernelIdeal.Launch
import proofs.«407712_j30391188586951_1_alg».proof.Proof.Gen.KernelIdeal.Skeleton
import proofs.«407712_j30391188586951_1_alg».proof.Proof.Gen.KernelIdeal.Points
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

theorem vec00 : (![0, 0] : Fin 2 → ℕ) = fun _ => 0 := funext fun a => by fin_cases a <;> rfl

-- the program that reads two buffers whole and writes `f` of what it read over a third
def mapWhole {S1 : Shape} (o1 : Fin S1.rank → ℕ) (inb1 : ∀ a, o1 a + S1.size a ≤ S1.size a)
    (f : Vec F S5000x128 .f32 → Vec F S1 .f32 → FVec F S5000x128 .f32)
    (a0 : Memref sig .tc .vmem S5000x128 .f32) (a1 : Memref sig .tc .vmem S1 .f32) (a2 : Memref sig .tc .vmem S5000x128 .f32)
    (hl : a1.view.LoadsAt (Rect.unit o1 S1.size inb1).toLoadRect) :
    Prog (TpuEff nD τ sig (Elt F) Λ₀ .tc) PUnit := do
  let v0 ← Prog.lift (.load a0 (Rect.unit (s := S5000x128) ![0, 0] S5000x128.size inb_S5000x128_S5000x128_0_0).toLoadRect (View.loadsAt_vmem h_S5000x128))
  let v1 ← Prog.lift (.load a1 (Rect.unit o1 S1.size inb1).toLoadRect hl)
  let _ ← Prog.lift (.load a2 (Rect.unit (s := S5000x128) ![0, 0] S5000x128.size inb_S5000x128_S5000x128_0_0).toLoadRect (View.loadsAt_vmem h_S5000x128))
  Prog.lift (.store a2 (Rect.unit (s := S5000x128) ![0, 0] S5000x128.size inb_S5000x128_S5000x128_0_0) (f v0 v1) Finset.univ (View.stores_vmem_bits_univ h_S5000x128 rfl) (.inl rfl))
  pure ⟨⟩

-- from inputs `x0`, `x1` and any third buffer it ends with the inputs kept and the third at `f x0 x1`: its one store covers that buffer
theorem wp_mapWhole {S1 : Shape} {o1 : Fin S1.rank → ℕ} (hz1 : o1 = fun _ => 0) {inb1 : ∀ a, o1 a + S1.size a ≤ S1.size a}
    (f : Vec F S5000x128 .f32 → Vec F S1 .f32 → FVec F S5000x128 .f32) (c : Dev nD) {E : Set ℕ}
    {a0 : Memref sig .tc .vmem S5000x128 .f32} {a1 : Memref sig .tc .vmem S1 .f32}
    {a2 : Memref sig .tc .vmem S5000x128 .f32} {hl : a1.view.LoadsAt (Rect.unit o1 S1.size inb1).toLoadRect}
    {Φ O : sProp 𝕄} (x0 : Vec F S5000x128 .f32) (x1 : Vec F S1 .f32)
    {b0 : Vec F S5000x128 .f32 → Vec F S5000x128 .f32} (hb0 : ∀ d, b0 d = x0)
    {b1 : Vec F S1 .f32 → Vec F S1 .f32} (hb1 : ∀ d, b1 d = x1)
    {b2 : Vec F S5000x128 .f32 → Vec F S5000x128 .f32} :
    iprop(Φ ∗ O ∗ (∃ d, owns (c : Thread nD τ) a0 fullShare (b0 d)) ∗ (∃ d, owns (c : Thread nD τ) a1 fullShare (b1 d))
        ∗ (∃ d, owns (c : Thread nD τ) a2 fullShare (b2 d)))
      ⊢ wp frame (wpE (defs₀ (F := F)) Variants.none c none) E (mapWhole o1 inb1 f a0 a1 a2 hl) fun _ =>
        iprop(Φ ∗ O ∗ owns (c : Thread nD τ) a0 fullShare x0 ∗ owns (c : Thread nD τ) a1 fullShare x1
          ∗ owns (c : Thread nD τ) a2 fullShare (f x0 x1)) := by
  unfold mapWhole owns
  iintro ⟨HΦ, HO, ⟨%d0, %f0, %hf0, H0⟩, ⟨%d1, %f1, %hf1, H1⟩, ⟨%d2, %f2, -, H2⟩⟩
  rw [hb0] at hf0; rw [hb1] at hf1
  subst hf0 hf1
  sl_exec
  sl_step
  iframe
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ fun y => ⟨_, List.mem_singleton_self _, View.mem_set_unit_zero vec00 inb_S5000x128_S5000x128_0_0 y⟩).trans <|
    (View.canon_unit_zero vec00 _ _).trans <| congrArg₂ f (View.ld_unit_zero vec00 _ _) (View.ld_unit_zero hz1 _ _)

end Cert.KernelIdeal.Hand
-- ==== Proof.Frame.Reg0.lean ====
import proofs.«407712_j30391188586951_1_alg».proof.Proof.Frame.RegLib

noncomputable section

namespace Cert.KernelIdeal.Hand

open Cert.KernelIdeal Cert.KernelIdeal.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S5000x128 .f32) (x1 : Vec F S128x128 .f32) : Vec F S5000x128 .f32 := k0_pay1 x0 x1

theorem out0_2_eq (x0 : Vec F S5000x128 .f32) (x1 : Vec F S128x128 .f32) : out0_2 x0 x1 = k0_pay1 x0 x1 := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := rfl

-- the body is `mapWhole` of `k0_pay1`, run on the two input windows' blocks, which it leaves in place
theorem body_obligation0 (c : Dev nD) : BodyObligation (dat0 (F := F) V c) (defs₀ (F := F)) Variants.none () Set.univ := fun t => by
  rw [bigSep_W0, bigSep_W0]
  change _ ⊢ wp _ _ _ (bodyAt0 t) _
  unfold bodyAt0
  rw [cc0__matmul_kernel_eq_skeleton]
  exact wp_mapWhole vec00 k0_pay1 c (iblk0 V c 0 t) (iblk0 V c 1 t)
    ((dat0 V c).before_in_eq_fetched 0 rfl (fun _ => rfl) (fun _ _ _ => rfl) (fun _ => rfl) t)
    ((dat0 V c).before_in_eq_fetched 1 rfl (fun _ => rfl) (fun _ _ _ => rfl) (fun _ => rfl) t)

end Cert.KernelIdeal.Hand
-- ==== Proof.Frame.Reg1.lean ====
import proofs.«407712_j30391188586951_1_alg».proof.Proof.Frame.RegLib

noncomputable section

namespace Cert.KernelIdeal.Hand

open Cert.KernelIdeal Cert.KernelIdeal.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_2 (x0 : Vec F S5000x128 .f32) (x1 : Vec F S1x128 .f32) : Vec F S5000x128 .f32 := k1_pay1 x0 x1

theorem out1_2_eq (x0 : Vec F S5000x128 .f32) (x1 : Vec F S1x128 .f32) : out1_2 x0 x1 = k1_pay1 x0 x1 := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = out1_2 (iblk1 V c 0 t) (iblk1 V c 1 t) := rfl

-- the body is `mapWhole` of `k1_pay1`, run on the two input windows' blocks, which it leaves in place
theorem body_obligation1 (c : Dev nD) : BodyObligation (dat1 (F := F) V c) (defs₀ (F := F)) Variants.none () Set.univ := fun t => by
  rw [bigSep_W1, bigSep_W1]
  change _ ⊢ wp _ _ _ (bodyAt1 t) _
  unfold bodyAt1
  rw [cc1__bias_act_kernel_eq_skeleton]
  exact wp_mapWhole vec00 k1_pay1 c (iblk1 V c 0 t) (iblk1 V c 1 t)
    ((dat1 V c).before_in_eq_fetched 0 rfl (fun _ => rfl) (fun _ _ _ => rfl) (fun _ => rfl) t)
    ((dat1 V c).before_in_eq_fetched 1 rfl (fun _ => rfl) (fun _ _ _ => rfl) (fun _ => rfl) t)

end Cert.KernelIdeal.Hand
-- ==== Proof.Frame.Reg2.lean ====
import proofs.«407712_j30391188586951_1_alg».proof.Proof.Frame.RegLib

noncomputable section

namespace Cert.KernelIdeal.Hand

open Cert.KernelIdeal Cert.KernelIdeal.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S5000x128 .f32) (x1 : Vec F S128x128 .f32) : Vec F S5000x128 .f32 := k2_pay1 x0 x1

theorem out2_2_eq (x0 : Vec F S5000x128 .f32) (x1 : Vec F S128x128 .f32) : out2_2 x0 x1 = k2_pay1 x0 x1 := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := rfl

-- the body is `mapWhole` of `k2_pay1`, run on the two input windows' blocks, which it leaves in place
theorem body_obligation2 (c : Dev nD) : BodyObligation (dat2 (F := F) V c) (defs₀ (F := F)) Variants.none () Set.univ := fun t => by
  rw [bigSep_W2, bigSep_W2]
  change _ ⊢ wp _ _ _ (bodyAt2 t) _
  unfold bodyAt2
  rw [cc2__matmul_kernel_eq_skeleton]
  exact wp_mapWhole vec00 k2_pay1 c (iblk2 V c 0 t) (iblk2 V c 1 t)
    ((dat2 V c).before_in_eq_fetched 0 rfl (fun _ => rfl) (fun _ _ _ => rfl) (fun _ => rfl) t)
    ((dat2 V c).before_in_eq_fetched 1 rfl (fun _ => rfl) (fun _ _ _ => rfl) (fun _ => rfl) t)

end Cert.KernelIdeal.Hand
-- ==== Proof.Frame.Reg3.lean ====
import proofs.«407712_j30391188586951_1_alg».proof.Proof.Frame.RegLib

noncomputable section

namespace Cert.KernelIdeal.Hand

open Cert.KernelIdeal Cert.KernelIdeal.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S5000x128 .f32) (x1 : Vec F S1x128 .f32) : Vec F S5000x128 .f32 := k3_pay1 x0 x1

theorem out3_2_eq (x0 : Vec F S5000x128 .f32) (x1 : Vec F S1x128 .f32) : out3_2 x0 x1 = k3_pay1 x0 x1 := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := rfl

-- the body is `mapWhole` of `k3_pay1`, run on the two input windows' blocks, which it leaves in place
theorem body_obligation3 (c : Dev nD) : BodyObligation (dat3 (F := F) V c) (defs₀ (F := F)) Variants.none () Set.univ := fun t => by
  rw [bigSep_W3, bigSep_W3]
  change _ ⊢ wp _ _ _ (bodyAt3 t) _
  unfold bodyAt3
  rw [cc3__bias_act_kernel_eq_skeleton]
  exact wp_mapWhole vec00 k3_pay1 c (iblk3 V c 0 t) (iblk3 V c 1 t)
    ((dat3 V c).before_in_eq_fetched 0 rfl (fun _ => rfl) (fun _ _ _ => rfl) (fun _ => rfl) t)
    ((dat3 V c).before_in_eq_fetched 1 rfl (fun _ => rfl) (fun _ _ _ => rfl) (fun _ => rfl) t)

end Cert.KernelIdeal.Hand
-- ==== Proof.Frame.Reg4.lean ====
import proofs.«407712_j30391188586951_1_alg».proof.Proof.Frame.RegLib

noncomputable section

namespace Cert.KernelIdeal.Hand

open Cert.KernelIdeal Cert.KernelIdeal.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S5000x128 .f32) (x1 : Vec F S128x128 .f32) : Vec F S5000x128 .f32 := k4_pay1 x0 x1

theorem out4_2_eq (x0 : Vec F S5000x128 .f32) (x1 : Vec F S128x128 .f32) : out4_2 x0 x1 = k4_pay1 x0 x1 := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = out4_2 (iblk4 V c 0 t) (iblk4 V c 1 t) := rfl

-- the body is `mapWhole` of `k4_pay1`, run on the two input windows' blocks, which it leaves in place
theorem body_obligation4 (c : Dev nD) : BodyObligation (dat4 (F := F) V c) (defs₀ (F := F)) Variants.none () Set.univ := fun t => by
  rw [bigSep_W4, bigSep_W4]
  change _ ⊢ wp _ _ _ (bodyAt4 t) _
  unfold bodyAt4
  rw [cc4__matmul_kernel_eq_skeleton]
  exact wp_mapWhole vec00 k4_pay1 c (iblk4 V c 0 t) (iblk4 V c 1 t)
    ((dat4 V c).before_in_eq_fetched 0 rfl (fun _ => rfl) (fun _ _ _ => rfl) (fun _ => rfl) t)
    ((dat4 V c).before_in_eq_fetched 1 rfl (fun _ => rfl) (fun _ _ _ => rfl) (fun _ => rfl) t)

end Cert.KernelIdeal.Hand
-- ==== Proof.Frame.Reg5.lean ====
import proofs.«407712_j30391188586951_1_alg».proof.Proof.Frame.RegLib

noncomputable section

namespace Cert.KernelIdeal.Hand

open Cert.KernelIdeal Cert.KernelIdeal.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_2 (x0 : Vec F S5000x128 .f32) (x1 : Vec F S1x128 .f32) : Vec F S5000x128 .f32 := k5_pay1 x0 x1

theorem out5_2_eq (x0 : Vec F S5000x128 .f32) (x1 : Vec F S1x128 .f32) : out5_2 x0 x1 = k5_pay1 x0 x1 := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = out5_2 (iblk5 V c 0 t) (iblk5 V c 1 t) := rfl

-- the body is `mapWhole` of `k5_pay1`, run on the two input windows' blocks, which it leaves in place
theorem body_obligation5 (c : Dev nD) : BodyObligation (dat5 (F := F) V c) (defs₀ (F := F)) Variants.none () Set.univ := fun t => by
  rw [bigSep_W5, bigSep_W5]
  change _ ⊢ wp _ _ _ (bodyAt5 t) _
  unfold bodyAt5
  rw [cc5__bias_act_kernel_eq_skeleton]
  exact wp_mapWhole vec00 k5_pay1 c (iblk5 V c 0 t) (iblk5 V c 1 t)
    ((dat5 V c).before_in_eq_fetched 0 rfl (fun _ => rfl) (fun _ _ _ => rfl) (fun _ => rfl) t)
    ((dat5 V c).before_in_eq_fetched 1 rfl (fun _ => rfl) (fun _ _ _ => rfl) (fun _ => rfl) t)

end Cert.KernelIdeal.Hand
-- ==== Proof.Frame.Reg6Defs.lean ====
import proofs.«407712_j30391188586951_1_alg».proof.Proof.Gen.KernelIdeal.Launch
import proofs.«407712_j30391188586951_1_alg».proof.Proof.Gen.KernelIdeal.Skeleton
import proofs.«407712_j30391188586951_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : (n : ℕ) → n < cfg6.N → Vec F S512x128 .f32 × Vec F S512x128 .f32
  | 0, h => (k6_pay4 (iblk6 V c 1 ⟨0, h⟩) (iblk6 V c 0 ⟨0, h⟩) k6_pay1, k6_pay5 (iblk6 V c 1 ⟨0, h⟩) k6_pay2)
  | n + 1, h => (k6_pay4 (iblk6 V c 1 ⟨n + 1, h⟩) (iblk6 V c 0 ⟨n + 1, h⟩) (acc6 c n (Nat.lt_of_succ_lt h)).1, k6_pay5 (iblk6 V c 1 ⟨n + 1, h⟩) (acc6 c n (Nat.lt_of_succ_lt h)).2)

theorem acc6_pos (c : Dev nD) (t : Fin cfg6.N) (ht : t.val ≠ 0) :
    acc6 V c t.val t.isLt = (k6_pay4 (iblk6 V c 1 t) (iblk6 V c 0 t) (acc6 V c (t.val - 1) (Nat.lt_of_le_of_lt (Nat.sub_le _ _) t.isLt)).1, k6_pay5 (iblk6 V c 1 t) (acc6 V c (t.val - 1) (Nat.lt_of_le_of_lt (Nat.sub_le _ _) t.isLt)).2) := by
  obtain ⟨n, hn⟩ := t
  cases n with
  | zero => exact absurd rfl ht
  | succ n => rfl

theorem acc6_first (c : Dev nD) (t : Fin cfg6.N) (ht : t.val = 0) :
    acc6 V c t.val t.isLt = (k6_pay4 (iblk6 V c 1 t) (iblk6 V c 0 t) k6_pay1, k6_pay5 (iblk6 V c 1 t) k6_pay2) := by
  obtain ⟨n, hn⟩ := t
  cases n with
  | zero => rfl
  | succ n => exact absurd ht (Nat.succ_ne_zero n)

def out6_4 (c : Dev nD) (t : Fin cfg6.N) : Vec F S512x128 .f32 :=
  k6_pay6 (acc6 V c t.val t.isLt).1 (acc6 V c t.val t.isLt).2 (iblk6 V c 2 t) (iblk6 V c 3 t)

abbrev scM6_0 : Memref sig .tc .vmem S512x128 .f32 := Memref.whole cc6_scratch0
abbrev scM6_1 : Memref sig .tc .vmem S512x128 .f32 := Memref.whole cc6_scratch1

def PhiS6 (c : Dev nD) : (n : ℕ) → n ≤ cfg6.N → sProp 𝕄
  | 0, _ => Pipeline.ΦA spec6 c
  | n + 1, hn => iprop(iprop(iprop(owns (c : Thread nD τ) scM6_0 fullShare (acc6 V c n hn).1 ∗ owns (c : Thread nD τ) scM6_1 fullShare (acc6 V c n hn).2) ∗ Pipeline.scopedRestBut spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (acc6 V c n hn).1 ∗ owns (c : Thread nD τ) scM6_1 fullShare (acc6 V c n hn).2) ∗ Pipeline.scopedRestBut spec6 c [cc6_scratch0, cc6_scratch1]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (acc6 V c (n - 1) (by omega)).1 ∗ owns (c : Thread nD τ) scM6_1 fullShare (acc6 V c (n - 1) (by omega)).2) ∗ Pipeline.scopedRestBut spec6 c [cc6_scratch0, cc6_scratch1]) ∗ (∃ r, prngReg c r)) := by
  cases n with
  | zero => exact absurd rfl hz
  | succ n => rfl

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ Pipeline.scopedRestBut spec6 c [cc6_scratch0, cc6_scratch1]) ∗ (∃ r, prngReg c r)) := by
  unfold Pipeline.ΦA; rw [scopedRest6_split]; simp only [scM6_0, scM6_1, owns_whole]; try rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 V c t := by dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

end Cert.KernelIdeal.Hand

end
-- ==== Proof.Frame.Reg6Body.lean ====
import proofs.«407712_j30391188586951_1_alg».proof.Proof.Gen.KernelIdeal.Skeleton
import proofs.«407712_j30391188586951_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

abbrev cond6_0 (i : grid6.Coords) : Prop :=
  (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 49 :=
  (by decide +kernel : ∀ t : Fin grid6.N, cond6_1 (grid6.coords t) ↔ t.val = 49)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl

theorem idleAt6_4 : ∀ t : Fin cfg6.N, ¬cond6_1 (grid6.coords t) → cfg6.idle 4 (grid6.coords t) = true := by decide +kernel

theorem noFlush6_4 : ∀ t : Fin cfg6.N, ¬cond6_1 (grid6.coords t) → (cfg6.win 4).flush t = false := by decide +kernel

theorem liveAt6_4 : ∀ t : Fin cfg6.N, cond6_1 (grid6.coords t) → cfg6.idle 4 (grid6.coords t) = false := by decide +kernel

theorem hz6 : (![0, 0] : Fin 2 → Nat) = fun _ => 0 := funext fun a => by fin_cases a <;> rfl

theorem read_writes_cons_unit_zero6 {sig : RefSig} {κ : Kind} {sp : Space} {S : Shape} {e : EltTy} {Val : EltTy → Type}
    [∀ e, Nonempty (Val e)] (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

variable (c : Dev nD) (i : grid6.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole)

set_option maxHeartbeats 1000000 in
theorem body6_first (hc0 : cond6_0 i) (hc1 : ¬cond6_1 i)
    (x0 : Vec F S2000x128 .f32) (x1 : Vec F S2000x1 .i32) (E : Set ℕ) (K : PUnit → sProp 𝕄) :
    iprop(owns (c : Thread nD τ) arg1 fullShare x0 ∗ owns (c : Thread nD τ) arg2 fullShare x1
          ∗ (∃ d, owns (c : Thread nD τ) arg6 fullShare d) ∗ (∃ d, owns (c : Thread nD τ) arg7 fullShare d)
          ∗ (iprop(owns (c : Thread nD τ) arg1 fullShare x0 ∗ owns (c : Thread nD τ) arg2 fullShare x1
                ∗ owns (c : Thread nD τ) arg6 fullShare (k6_pay4 x1 x0 k6_pay1) ∗ owns (c : Thread nD τ) arg7 fullShare (k6_pay5 x1 k6_pay2)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%d6, %f6, -, H6⟩, ⟨%d7, %f7, -, H7⟩, Hk⟩
  obtain rfl := harg1.eq_unread hf0; obtain rfl := harg2.eq_unread hf1
  sl_exec (disch := first | exact hc0 | exact hc1)
  sl_step
  iapply Hk
  isplitl [H0]; swap; isplitl [H1]; swap; isplitl [H6]; swap
  all_goals
    iexists _; isplitr; swap; · iassumption
    ipureintro
    first
    | exact Memref.IsWhole.read_unread ‹_› _
    | sl_unfold_words
      rw [read_writes_cons_unit_zero6 _ _ hz6]
      simp only [View.readAt_eq_ld, Memref.IsWhole.read_unread, View.ld_unit_zero (S := S2000x128) hz6, View.ld_unit_zero (S := S2000x1) hz6, View.ld_unit_zero (S := S512x128) hz6, View.ld_unit_zero (S := S128x128) hz6, View.ld_unit_zero (S := S1x128) hz6, View.readCov_unit_zero (S := S512x128) _ hz6]

set_option maxHeartbeats 1000000 in
theorem body6_mid (hc0 : ¬cond6_0 i) (hc1 : ¬cond6_1 i)
    (x0 : Vec F S2000x128 .f32) (x1 : Vec F S2000x1 .i32) (xs0 xs1 : Vec F S512x128 .f32) (E : Set ℕ) (K : PUnit → sProp 𝕄) :
    iprop(owns (c : Thread nD τ) arg1 fullShare x0 ∗ owns (c : Thread nD τ) arg2 fullShare x1
          ∗ owns (c : Thread nD τ) arg6 fullShare xs0 ∗ owns (c : Thread nD τ) arg7 fullShare xs1
          ∗ (iprop(owns (c : Thread nD τ) arg1 fullShare x0 ∗ owns (c : Thread nD τ) arg2 fullShare x1
                ∗ owns (c : Thread nD τ) arg6 fullShare (k6_pay4 x1 x0 xs0) ∗ owns (c : Thread nD τ) arg7 fullShare (k6_pay5 x1 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%f6, %hf6, H6⟩, ⟨%f7, %hf7, H7⟩, Hk⟩
  obtain rfl := harg1.eq_unread hf0; obtain rfl := harg2.eq_unread hf1
  obtain rfl := harg6.eq_unread hf6; obtain rfl := harg7.eq_unread hf7
  sl_exec (disch := first | exact hc0 | exact hc1)
  sl_step
  iapply Hk
  isplitl [H0]; swap; isplitl [H1]; swap; isplitl [H6]; swap
  all_goals
    iexists _; isplitr; swap; · iassumption
    ipureintro
    first
    | exact Memref.IsWhole.read_unread ‹_› _
    | sl_unfold_words
      rw [read_writes_cons_unit_zero6 _ _ hz6]
      simp only [View.readAt_eq_ld, Memref.IsWhole.read_unread, View.ld_unit_zero (S := S2000x128) hz6, View.ld_unit_zero (S := S2000x1) hz6, View.ld_unit_zero (S := S512x128) hz6, View.ld_unit_zero (S := S128x128) hz6, View.ld_unit_zero (S := S1x128) hz6, View.readCov_unit_zero (S := S512x128) _ hz6]

set_option maxHeartbeats 1000000 in
theorem body6_last (hc0 : ¬cond6_0 i) (hc1 : cond6_1 i)
    (x0 : Vec F S2000x128 .f32) (x1 : Vec F S2000x1 .i32) (x2 : Vec F S128x128 .f32) (x3 : Vec F S1x128 .f32)
    (xs0 xs1 : Vec F S512x128 .f32) (E : Set ℕ) (K : PUnit → sProp 𝕄) :
    iprop(owns (c : Thread nD τ) arg1 fullShare x0 ∗ owns (c : Thread nD τ) arg2 fullShare x1
          ∗ owns (c : Thread nD τ) arg3 fullShare x2 ∗ owns (c : Thread nD τ) arg4 fullShare x3
          ∗ (∃ d, owns (c : Thread nD τ) arg5 fullShare d)
          ∗ owns (c : Thread nD τ) arg6 fullShare xs0 ∗ owns (c : Thread nD τ) arg7 fullShare xs1
          ∗ (iprop(owns (c : Thread nD τ) arg1 fullShare x0 ∗ owns (c : Thread nD τ) arg2 fullShare x1
                ∗ owns (c : Thread nD τ) arg3 fullShare x2 ∗ owns (c : Thread nD τ) arg4 fullShare x3
                ∗ owns (c : Thread nD τ) arg5 fullShare (k6_pay6 (k6_pay4 x1 x0 xs0) (k6_pay5 x1 xs1) x2 x3)
                ∗ owns (c : Thread nD τ) arg6 fullShare (k6_pay4 x1 x0 xs0) ∗ owns (c : Thread nD τ) arg7 fullShare (k6_pay5 x1 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, Hk⟩
  obtain rfl := harg1.eq_unread hf0; obtain rfl := harg2.eq_unread hf1
  obtain rfl := harg3.eq_unread hf2; obtain rfl := harg4.eq_unread hf3
  obtain rfl := harg6.eq_unread hf6; obtain rfl := harg7.eq_unread hf7
  sl_exec (disch := first | exact hc0 | exact hc1)
  sl_step
  iapply Hk
  isplitl [H0]; swap; isplitl [H1]; swap; isplitl [H2]; swap; isplitl [H3]; swap; isplitl [H5]; swap; isplitl [H6]; swap
  all_goals
    iexists _; isplitr; swap; · iassumption
    ipureintro
    first
    | exact Memref.IsWhole.read_unread ‹_› _
    | sl_unfold_words
      rw [read_writes_cons_unit_zero6 _ _ hz6]
      simp only [View.readAt_eq_ld, Memref.IsWhole.read_unread, View.ld_unit_zero (S := S2000x128) hz6, View.ld_unit_zero (S := S2000x1) hz6, View.ld_unit_zero (S := S512x128) hz6, View.ld_unit_zero (S := S128x128) hz6, View.ld_unit_zero (S := S1x128) hz6, View.readCov_unit_zero (S := S512x128) _ hz6]

end Cert.KernelIdeal.Hand

end
-- ==== Proof.Frame.Reg6.lean ====
import proofs.«407712_j30391188586951_1_alg».proof.Proof.Frame.Reg6Defs
import proofs.«407712_j30391188586951_1_alg».proof.Proof.Frame.Reg6Body

noncomputable section

namespace Cert.KernelIdeal.Hand

open Cert.KernelIdeal.Gen Idealize.ShloMosaic Idealize.ShloMosaic.TcCoe
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d

-- three cases by the point: the first starts the two running values from constants, a later one updates them, the last also writes the output from them
set_option maxHeartbeats 4000000 in
theorem body_obligation6 (c : Dev nD) : BodyObligation (dat6 (F := F) V c) (defs₀ (F := F)) Variants.none () Set.univ := fun t => by
  rw [bigSep_W6, bigSep_W6]
  change iprop(PhiS6 V c t.val (Nat.le_of_lt t.isLt) ∗ (dat6 V c).owesAt () t.castSucc ∗ _)
    ⊢ wp _ _ _ (bodyAt6 t) fun _ => iprop(PhiS6 V c (t.val + 1) t.isLt ∗ (dat6 V c).owesAt () t.castSucc
      ∗ owns _ _ _ (iblk6 V c 0 t) ∗ owns _ _ _ (iblk6 V c 1 t) ∗ owns _ _ _ (iblk6 V c 2 t) ∗ owns _ _ _ (iblk6 V c 3 t)
      ∗ (dat6 V c).leavesExact 4 t)
  unfold bodyAt6
  simp only [before6_0, before6_1, before6_2, before6_3]
  rw [PhiS6_succ]
  by_cases h0 : t.val = 0
  · have hc0 := (hcond6_0 t).mpr h0
    have hc1 : ¬cond6_1 (grid6.coords t) := fun h => by have := (hcond6_1 t).mp h; omega
    rw [Dat.leavesExact_idle (dat6 V c) 4 t (idleAt6_4 t hc1) (noFlush6_4 t hc1), acc6_first V c t h0]; dsimp only
    rw [PhiS6_zero V c _ _ h0, PhiA6_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (body6_first c _ _ _ _ _ _ _ _ _ _ _ _ _ _ _ hc0 hc1 _ _ _ _)
    iframe
    iintro ⟨H0, H1, HS0, HS1⟩
    iframe
    iexists _; iexact H4
  · have hc0 : ¬cond6_0 (grid6.coords t) := fun h => h0 ((hcond6_0 t).mp h)
    by_cases h1 : t.val = 49
    · have hc1 := (hcond6_1 t).mpr h1
      rw [show (dat6 V c).leavesExact 4 t = owns (c : Thread nD τ) _ fullShare ((dat6 V c).after 4 t) from by
        unfold Dat.leavesExact; rw [liveAt6_4 t hc1], after6_4]
      unfold out6_4
      rw [acc6_pos V c t h0]; dsimp only
      rw [PhiS6_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (body6_last c _ _ _ _ _ _ _ _ _ _ _ _ _ _ _ hc0 hc1 _ _ _ _ _ _ _ _)
      iframe
      isplitl [H4]; · iexists _; iexact H4
      iintro ⟨H0, H1, H2, H3, H4, HS0, HS1⟩
      iframe
    · have hc1 : ¬cond6_1 (grid6.coords t) := fun h => h1 ((hcond6_1 t).mp h)
      rw [Dat.leavesExact_idle (dat6 V c) 4 t (idleAt6_4 t hc1) (noFlush6_4 t hc1), acc6_pos V c t h0]; dsimp only
      rw [PhiS6_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (body6_mid c _ _ _ _ _ _ _ _ _ _ _ _ _ _ _ hc0 hc1 _ _ _ _ _ _)
      iframe
      iintro ⟨H0, H1, HS0, HS1⟩
      iframe
      iexists _; iexact H4

theorem hin6 (c : Dev nD) : Pipeline.ΦA spec6 c ⊢ (dat6 V c).Φ 0 := by
  rw [show (dat6 V c).Φ 0 = PhiS6 V c 0 (Nat.zero_le _) from rfl, PhiS6_zero V c 0 _ rfl]

theorem hout6 (c : Dev nD) : (dat6 V c).Φ (Fin.last cfg6.N) ⊢ Pipeline.ΦA spec6 c := by
  rw [show (dat6 V c).Φ (Fin.last cfg6.N) = PhiS6 V c cfg6.N (Nat.le_refl _) from rfl,
    PhiS6_pos V c _ _ (by rw [show cfg6.N = 50 from N_6]; decide), PhiA6_eq]
  iintro ⟨⟨⟨HS0, HS1⟩, HR⟩, Hg⟩
  iframe
  isplitl [HS0] <;> iexists _ <;> iassumption

end Cert.KernelIdeal.Hand
-- ==== Proof.Frame.Outs.lean ====
import proofs.«407712_j30391188586951_1_alg».proof.Proof.Frame.Reg0
import proofs.«407712_j30391188586951_1_alg».proof.Proof.Frame.Reg1
import proofs.«407712_j30391188586951_1_alg».proof.Proof.Frame.Reg2
import proofs.«407712_j30391188586951_1_alg».proof.Proof.Frame.Reg3
import proofs.«407712_j30391188586951_1_alg».proof.Proof.Frame.Reg4
import proofs.«407712_j30391188586951_1_alg».proof.Proof.Frame.Reg5
import proofs.«407712_j30391188586951_1_alg».proof.Proof.Frame.Reg6
import proofs.«407712_j30391188586951_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `outs` are what each region leaves in its output array, computed from the valuation the region is entered at
structure OutsOK (outs : Gen.Outs (F := F)) : Prop where
  o2  : ∀ c, outs 2 main_v27 c  = (dat0 (fun c b => Gen.V1 m c b) c).arrAt 2 cfg0.N
  o4  : ∀ c, outs 4 main_v42 c  = (dat1 (fun c b => Gen.V3 m outs c b) c).arrAt 2 cfg1.N
  o5  : ∀ c, outs 5 main_v43 c  = (dat2 (fun c b => Gen.V4 m outs c b) c).arrAt 2 cfg2.N
  o7  : ∀ c, outs 7 main_v58 c  = (dat3 (fun c b => Gen.V6 m outs c b) c).arrAt 2 cfg3.N
  o8  : ∀ c, outs 8 main_v59 c  = (dat4 (fun c b => Gen.V7 m outs c b) c).arrAt 2 cfg4.N
  o10 : ∀ c, outs 10 main_v74 c = (dat5 (fun c b => Gen.V9 m outs c b) c).arrAt 2 cfg5.N
  o12 : ∀ c, outs 12 main_v77 c = (dat6 (fun c b => Gen.V11 m outs c b) c).arrAt 4 cfg6.N

def U1 (c : Dev nD) : Valuation τ sig (Elt F) := Gen.V1 m c

def U2 (c : Dev nD) : Valuation τ sig (Elt F) :=
  Function.update (U1 m c) main_v27 ((dat0 (fun c b => U1 m c b) c).arrAt 2 cfg0.N)

def U3 (c : Dev nD) : Valuation τ sig (Elt F) := StableHlo.after hostOps1 (U2 m c)

def U4 (c : Dev nD) : Valuation τ sig (Elt F) :=
  Function.update (U3 m c) main_v42 ((dat1 (fun c b => U3 m c b) c).arrAt 2 cfg1.N)

def U5 (c : Dev nD) : Valuation τ sig (Elt F) :=
  Function.update (U4 m c) main_v43 ((dat2 (fun c b => U4 m c b) c).arrAt 2 cfg2.N)

def U6 (c : Dev nD) : Valuation τ sig (Elt F) := StableHlo.after hostOps3 (U5 m c)

def U7 (c : Dev nD) : Valuation τ sig (Elt F) :=
  Function.update (U6 m c) main_v58 ((dat3 (fun c b => U6 m c b) c).arrAt 2 cfg3.N)

def U8 (c : Dev nD) : Valuation τ sig (Elt F) :=
  Function.update (U7 m c) main_v59 ((dat4 (fun c b => U7 m c b) c).arrAt 2 cfg4.N)

def U9 (c : Dev nD) : Valuation τ sig (Elt F) := StableHlo.after hostOps5 (U8 m c)

def U10 (c : Dev nD) : Valuation τ sig (Elt F) :=
  Function.update (U9 m c) main_v74 ((dat5 (fun c b => U9 m c b) c).arrAt 2 cfg5.N)

def U11 (c : Dev nD) : Valuation τ sig (Elt F) := StableHlo.after hostOps6 (U10 m c)

def U12 (c : Dev nD) : Valuation τ sig (Elt F) :=
  Function.update (U11 m c) main_v77 ((dat6 (fun c b => U11 m c b) c).arrAt 4 cfg6.N)

-- those contents, built from the launch memory alone
def outsF : Gen.Outs (F := F) := fun J r c =>
  match J with
  | 2 => U2 m c r
  | 4 => U4 m c r
  | 5 => U5 m c r
  | 7 => U7 m c r
  | 8 => U8 m c r
  | 10 => U10 m c r
  | 12 => U12 m c r
  | _ => U1 m c r

theorem V2_eq (c : Dev nD) : Gen.V2 m (outsF m) c = U2 m c := by
  show Function.update (Gen.V1 m c) main_v27 (U2 m c main_v27) = U2 m c
  unfold U2; rw [Function.update_self]; rfl
theorem V3_eq (c : Dev nD) : Gen.V3 m (outsF m) c = U3 m c :=
  congrArg (StableHlo.after hostOps1) (V2_eq m c)
theorem V4_eq (c : Dev nD) : Gen.V4 m (outsF m) c = U4 m c := by
  show Function.update (Gen.V3 m (outsF m) c) main_v42 (U4 m c main_v42) = U4 m c
  rw [V3_eq]; unfold U4; rw [Function.update_self]
theorem V5_eq (c : Dev nD) : Gen.V5 m (outsF m) c = U5 m c := by
  show Function.update (Gen.V4 m (outsF m) c) main_v43 (U5 m c main_v43) = U5 m c
  rw [V4_eq]; unfold U5; rw [Function.update_self]
theorem V6_eq (c : Dev nD) : Gen.V6 m (outsF m) c = U6 m c :=
  congrArg (StableHlo.after hostOps3) (V5_eq m c)
theorem V7_eq (c : Dev nD) : Gen.V7 m (outsF m) c = U7 m c := by
  show Function.update (Gen.V6 m (outsF m) c) main_v58 (U7 m c main_v58) = U7 m c
  rw [V6_eq]; unfold U7; rw [Function.update_self]
theorem V8_eq (c : Dev nD) : Gen.V8 m (outsF m) c = U8 m c := by
  show Function.update (Gen.V7 m (outsF m) c) main_v59 (U8 m c main_v59) = U8 m c
  rw [V7_eq]; unfold U8; rw [Function.update_self]
theorem V9_eq (c : Dev nD) : Gen.V9 m (outsF m) c = U9 m c :=
  congrArg (StableHlo.after hostOps5) (V8_eq m c)
theorem V10_eq (c : Dev nD) : Gen.V10 m (outsF m) c = U10 m c := by
  show Function.update (Gen.V9 m (outsF m) c) main_v74 (U10 m c main_v74) = U10 m c
  rw [V9_eq]; unfold U10; rw [Function.update_self]
theorem V11_eq (c : Dev nD) : Gen.V11 m (outsF m) c = U11 m c :=
  congrArg (StableHlo.after hostOps6) (V10_eq m c)
theorem outsF_ok : OutsOK m (outsF m) where
  o2 c := by
    show U2 m c main_v27 = _
    unfold U2; rw [Function.update_self]; rfl
  o4 c := by
    rw [show (fun (c : Dev nD) (b : Ref sig .tc) => Gen.V3 m (outsF m) c b) = fun (c : Dev nD) (b : Ref sig .tc) => U3 m c b from
      funext fun c => by rw [V3_eq]]
    show U4 m c main_v42 = _
    unfold U4; rw [Function.update_self]
  o5 c := by
    rw [show (fun (c : Dev nD) (b : Ref sig .tc) => Gen.V4 m (outsF m) c b) = fun (c : Dev nD) (b : Ref sig .tc) => U4 m c b from
      funext fun c => by rw [V4_eq]]
    show U5 m c main_v43 = _
    unfold U5; rw [Function.update_self]
  o7 c := by
    rw [show (fun (c : Dev nD) (b : Ref sig .tc) => Gen.V6 m (outsF m) c b) = fun (c : Dev nD) (b : Ref sig .tc) => U6 m c b from
      funext fun c => by rw [V6_eq]]
    show U7 m c main_v58 = _
    unfold U7; rw [Function.update_self]
  o8 c := by
    rw [show (fun (c : Dev nD) (b : Ref sig .tc) => Gen.V7 m (outsF m) c b) = fun (c : Dev nD) (b : Ref sig .tc) => U7 m c b from
      funext fun c => by rw [V7_eq]]
    show U8 m c main_v59 = _
    unfold U8; rw [Function.update_self]
  o10 c := by
    rw [show (fun (c : Dev nD) (b : Ref sig .tc) => Gen.V9 m (outsF m) c b) = fun (c : Dev nD) (b : Ref sig .tc) => U9 m c b from
      funext fun c => by rw [V9_eq]]
    show U10 m c main_v74 = _
    unfold U10; rw [Function.update_self]
  o12 c := by
    rw [show (fun (c : Dev nD) (b : Ref sig .tc) => Gen.V11 m (outsF m) c b) = fun (c : Dev nD) (b : Ref sig .tc) => U11 m c b from
      funext fun c => by rw [V11_eq]]
    show U12 m c main_v77 = _
    unfold U12; rw [Function.update_self]

end Cert.KernelIdeal.Hand

end
-- ==== Proof.Frame.SegsBase.lean ====
import proofs.«407712_j30391188586951_1_alg».proof.Proof.Frame.Outs
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Lno : GSem nD τ sig → Finset Unit := fun _ => ∅
abbrev lv0 : GSem nD τ sig → Unit → ℕ := fun _ _ => 0

abbrev Rst (c : Dev nD) : sProp 𝕄 :=
  iprop((∃ r, prngReg c r) ∗ ∃ W, owes (c : Thread nD τ) (0 : CellTallies nD τ sig Unit) W)

variable (m : (ℓ : Loc nD τ sig) → Buf (Elt F) ℓ) (outs : Gen.Outs (F := F))

-- every region's proof data, each at the valuation its region is entered at
def pdats : (p : Fin 7) → (c : Dev nD) → Dat τ (Elt F) Unit ℕ (UR sig nD τ) ℕ (Pipeline.pin (pcfgs (F := F)) Gen.adm p) c
  | ⟨0, _⟩ => fun c => dat0 (fun c b => Gen.V1 m c b) c
  | ⟨1, _⟩ => fun c => dat1 (fun c b => Gen.V3 m outs c b) c
  | ⟨2, _⟩ => fun c => dat2 (fun c b => Gen.V4 m outs c b) c
  | ⟨3, _⟩ => fun c => dat3 (fun c b => Gen.V6 m outs c b) c
  | ⟨4, _⟩ => fun c => dat4 (fun c b => Gen.V7 m outs c b) c
  | ⟨5, _⟩ => fun c => dat5 (fun c b => Gen.V9 m outs c b) c
  | ⟨6, _⟩ => fun c => dat6 (fun c b => Gen.V11 m outs c b) c

theorem PhiA_in {gr W : Nat} (win : Fin W → Pipeline.WinSpec sig gr) (c : Dev nD) (P : sProp 𝕄) :
    iprop((∃ r, prngReg c r) ∗ P ∗ Pipeline.scopedRest win c) ⊢ (Pipeline.ΦA (U := UR sig nD τ) (Val := Elt F) win c : sProp 𝕄) := by
  unfold Pipeline.ΦA
  iintro ⟨Hp, -, Hr⟩
  isplitl [Hr]; · iexact Hr
  iexact Hp

theorem PhiA_out {gr W : Nat} (win : Fin W → Pipeline.WinSpec sig gr) (c : Dev nD) :
    (Pipeline.ΦA (U := UR sig nD τ) (Val := Elt F) win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

end Cert.KernelIdeal.Hand

end
-- ==== Proof.Frame.Segs.lean ====
import proofs.«407712_j30391188586951_1_alg».proof.Proof.Frame.SegsBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

-- What holds of every region's data alike, proved once by cases on the region.
theorem pdats_plain (p : Fin 7) (c : Dev nD) :
    (∀ t, (pdats m outs p c).owed t = 0) ∧ (∀ w, (pdats m outs p c).q w = fullShare)
      ∧ (pdats m outs p c).recorded 0 = Set.univ := by
  fin_cases p <;> exact ⟨fun _ => rfl, fun _ => rfl, rfl⟩

abbrev Region (p : Fin 7) := Pipeline.RegionSeg (pcfgs (F := F)) Gen.adm (pdats m outs) () defs₀ Variants.none Lno lv0 p

set_option backward.isDefEq.respectTransparency.types false in
-- A region with one output window `o`, left at the entry valuation updated at the output array with the region's result.
def segOf (p : Fin 7) (launch : Pipeline.LaunchFacts (nD := nD) (τ := τ) cfgs p)
    (entV extV : Dev nD → Valuation τ sig (Elt F))
    (hbody : ∀ c, BodyObligation (pdats m outs p c) defs₀ Variants.none () Set.univ)
    (hA : ∀ c w, (pdats m outs p c).A w = entV c (Pipeline.arrRef (cfgs p).spec w))
    (o : Fin (cfgs p).W) (hio : ∀ w, w ≠ o → ((cfgs p).win w).isOut = false)
    {x : (c : Dev nD) → Buf (Elt F) ((c : Thread nD τ).loc (Pipeline.arrRef (cfgs p).spec o))}
    (hx : ∀ c, x c = (pdats m outs p c).arrAt o (cfgs p).N)
    (hext : ∀ c, extV c = Function.update (entV c) (Pipeline.arrRef (cfgs p).spec o) (x c))
    (hin : ∀ c, Pipeline.ΦA (cfgs p).spec c ⊢ (pdats m outs p c).Φ 0)
    (hout : ∀ c, (pdats m outs p c).Φ (Fin.last (cfgs p).N) ⊢ Pipeline.ΦA (cfgs p).spec c) : Region m outs p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ Lno lv0 p fun c => (pdats_plain m outs p c).1
  pre c := iprop(StableHlo.held (c : Thread nD τ) (Pipeline.ucRefs τ sig) (entV c) ∗ Rst c)
  post c := iprop(StableHlo.held (c : Thread nD τ) (Pipeline.ucRefs τ sig) (extV c) ∗ Rst c)
  X c := iprop(∃ r, prngReg c r)
  Y c := iprop(∃ r, prngReg c r)
  Z c := Pipeline.unscopedRest (Ix := Unit) (Name := ℕ) (U := UR sig nD τ) (Lvl := ℕ) (cfgs p).spec c fun b => entV c b
  hentry c := by
    rw [Pipeline.ownSems0_none]
    have hsplit := Pipeline.arrays_of_unscopedBufs (p := p) (pcfgs (F := F)) Gen.adm (pdats m outs) launch.win launch.arr_whole c
      ((pdats m outs p c).share_full (pdats_plain m outs p c).2.1) (fun b => entV c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [(pdats_plain m outs p c).1, (pdats_plain m outs p c).2.2]
      icases HO with ⟨%W, HO⟩; iexists W; isplitr; · ipureintro; exact fun _ _ => Or.inl trivial
      iexact HO
    isplitl [Hp]; · iexact Hp
    iexact Hrest
  hin c := (PhiA_in _ c _).trans (hin c)
  hout c := by rw [Pipeline.ownSems0_none]; exact (hout c).trans (PhiA_out _ c)
  hexit c := by
    have hF : ∀ w, (pdats m outs p c).arrAt w (cfgs p).N = extV c (Pipeline.arrRef (cfgs p).spec w) := fun w => by
      rw [hext]
      by_cases h : w = o
      · subst h; rw [Function.update_self, hx]
      · rw [Function.update_of_ne (StableHlo.devRef_ne_of_ne (launch.win.arr_inj.ne h)), ← hA, Dat.arrAt_in _ w (hio w h)]
    have hrest : ∀ b, b ∉ Finset.univ.image (Pipeline.arrRef (cfgs p).spec) → extV c b = entV c b := fun b hb => by
      rw [hext, Function.update_of_ne (StableHlo.devRef_ne_of_ne fun h => hb (Finset.mem_image.mpr ⟨o, Finset.mem_univ _, h.symm⟩))]
    have hjoin := Pipeline.unscopedBufs_of_arrays (p := p) (pcfgs (F := F)) Gen.adm (Ix := Unit) (Name := ℕ) (U := UR sig nD τ) (Lvl := ℕ)
      launch.win launch.arr_whole c (pdats m outs) ((pdats m outs p c).share_full (pdats_plain m outs p c).2.1)
      (fun b => entV c b) (fun b => extV c b) ((pdats m outs p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(pdats_plain m outs p c).1]
    icases HO with ⟨%W, -, HO⟩; iexists W; iexact HO

variable (hO : OutsOK m outs)

set_option backward.isDefEq.respectTransparency.types false in
def reg0 : Region m outs 0 :=
  segOf m outs 0 launch0 (Gen.V1 m) (Gen.V2 m outs) (body_obligation0 fun c b => Gen.V1 m c b) (fun _ _ => rfl) (2 : Fin 3) (by decide)
    hO.o2 (fun _ => rfl) (fun _ => .rfl) (fun _ => .rfl)

set_option backward.isDefEq.respectTransparency.types false in
def reg1 : Region m outs 1 :=
  segOf m outs 1 launch1 (Gen.V3 m outs) (Gen.V4 m outs) (body_obligation1 fun c b => Gen.V3 m outs c b) (fun _ _ => rfl) (2 : Fin 3) (by decide)
    hO.o4 (fun _ => rfl) (fun _ => .rfl) (fun _ => .rfl)

set_option backward.isDefEq.respectTransparency.types false in
def reg2 : Region m outs 2 :=
  segOf m outs 2 launch2 (Gen.V4 m outs) (Gen.V5 m outs) (body_obligation2 fun c b => Gen.V4 m outs c b) (fun _ _ => rfl) (2 : Fin 3) (by decide)
    hO.o5 (fun _ => rfl) (fun _ => .rfl) (fun _ => .rfl)

set_option backward.isDefEq.respectTransparency.types false in
def reg3 : Region m outs 3 :=
  segOf m outs 3 launch3 (Gen.V6 m outs) (Gen.V7 m outs) (body_obligation3 fun c b => Gen.V6 m outs c b) (fun _ _ => rfl) (2 : Fin 3) (by decide)
    hO.o7 (fun _ => rfl) (fun _ => .rfl) (fun _ => .rfl)

set_option backward.isDefEq.respectTransparency.types false in
def reg4 : Region m outs 4 :=
  segOf m outs 4 launch4 (Gen.V7 m outs) (Gen.V8 m outs) (body_obligation4 fun c b => Gen.V7 m outs c b) (fun _ _ => rfl) (2 : Fin 3) (by decide)
    hO.o8 (fun _ => rfl) (fun _ => .rfl) (fun _ => .rfl)

set_option backward.isDefEq.respectTransparency.types false in
def reg5 : Region m outs 5 :=
  segOf m outs 5 launch5 (Gen.V9 m outs) (Gen.V10 m outs) (body_obligation5 fun c b => Gen.V9 m outs c b) (fun _ _ => rfl) (2 : Fin 3) (by decide)
    hO.o10 (fun _ => rfl) (fun _ => .rfl) (fun _ => .rfl)

set_option backward.isDefEq.respectTransparency.types false in
def reg6 : Region m outs 6 :=
  segOf m outs 6 launch6 (Gen.V11 m outs) (Gen.V12 m outs) (body_obligation6 fun c b => Gen.V11 m outs c b) (fun _ _ => rfl) (4 : Fin 5) (by decide)
    hO.o12 (fun _ => rfl) (hin6 _) (hout6 _)

end Cert.KernelIdeal.Hand

end
-- ==== Proof.Frame.Run.lean ====
import proofs.«407712_j30391188586951_1_alg».proof.Proof.Frame.Segs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

theorem Rst_owes (c : Dev nD) :
    Rst (F := F) c ⊢ (iprop(∃ W, owes (c : Thread nD τ) (0 : CellTallies nD τ sig Unit) W) : sProp 𝕄) := by
  iintro ⟨-, H⟩; iexact H

-- if `outs` are what the regions leave, every fair execution ends with each buffer of each core at the last valuation
set_option backward.isDefEq.respectTransparency.types false in
theorem run_cond (outs : Gen.Outs (F := F)) (hO : OutsOK m outs) :
    θ_run defs (onTc (τ := τ) (main (F := F))) ⟨m, fun _ => 0, ρ⟩
      (fun r => ∀ c : Dev nD, ∀ b ∈ Pipeline.ucRefs τ sig, r.2.mem ((c : Thread nD τ).1, b) = Gen.V12 m outs c b) := by
  refine Pipeline.θ_run_regions_kit_dev (pcfgs (F := F)) Gen.adm (pdats m outs) () cellOf_inj emb₁ defs₀ Variants.none Lno lv0 m ρ main
    (Gen.segs m outs Variants.none Lno lv0 (fun _ c => Rst c) () (pdats m outs) (reg0 m outs hO) (reg1 m outs hO) (reg2 m outs hO) (reg3 m outs hO) (reg4 m outs hO) (reg5 m outs hO) (reg6 m outs hO))
    (fun c Q => by
      rewrite [main_chain c, Pipeline.Seg.run_eq_chain,
        show (Gen.segs m outs Variants.none Lno lv0 (fun _ c => Rst c) () (pdats m outs) (reg0 m outs hO) (reg1 m outs hO) (reg2 m outs hO) (reg3 m outs hO) (reg4 m outs hO) (reg5 m outs hO) (reg6 m outs hO) c).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V12 m outs c))
    (hch := fun c => ⟨.rfl, .rfl, .rfl, .rfl, .rfl, .rfl, .rfl, .rfl, .rfl, .rfl, .rfl, .rfl, sep_mono .rfl (Rst_owes c)⟩)
    (hinit := by

      refine Pipeline.initEach Lno lv0 fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V12 m outs c b)
    (hfin := fun c s' => by

      iintro ⟨Hh, HSI⟩
      unfold StableHlo.held
      imodintro
      iapply (pointsTo_read_all (Pipeline.ucRefs τ sig) (fun b => ((c : Thread nD τ).1, b)) (Gen.V12 m outs c) s')
      isplitl [Hh] <;> iassumption)
    (hQ := fun s h c => h c)

-- at the contents the regions do leave: the result buffer ends at region 6's array and every argument as launched
theorem run_value : θ_run defs (onTc (τ := τ) (main (F := F))) ⟨m, fun _ => 0, ρ⟩ (fun r => ∀ c : Dev nD,
      r.2.mem ((c.tc : Thread nD τ).loc main_v77) = outsF m 12 main_v77 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucRefs main_v77 (by decide))).trans
        (by show Function.update (Gen.V11 m (outsF m) c) main_v77 (outsF m 12 main_v77 c) main_v77 = _; rw [Function.update_self]),
      (h c _ (mem_ucRefs main_arg0 (by decide))).trans (Gen.V12_main_arg0 m (outsF m) c),
      (h c _ (mem_ucRefs main_arg1 (by decide))).trans (Gen.V12_main_arg1 m (outsF m) c),
      (h c _ (mem_ucRefs main_arg2 (by decide))).trans (Gen.V12_main_arg2 m (outsF m) c),
      (h c _ (mem_ucRefs main_arg3 (by decide))).trans (Gen.V12_main_arg3 m (outsF m) c),
      (h c _ (mem_ucRefs main_arg4 (by decide))).trans (Gen.V12_main_arg4 m (outsF m) c),
      (h c _ (mem_ucRefs main_arg5 (by decide))).trans (Gen.V12_main_arg5 m (outsF m) c),
      (h c _ (mem_ucRefs main_arg6 (by decide))).trans (Gen.V12_main_arg6 m (outsF m) c),
      (h c _ (mem_ucRefs main_arg7 (by decide))).trans (Gen.V12_main_arg7 m (outsF m) c),
      (h c _ (mem_ucRefs main_arg8 (by decide))).trans (Gen.V12_main_arg8 m (outsF m) c),
      (h c _ (mem_ucRefs main_arg9 (by decide))).trans (Gen.V12_main_arg9 m (outsF m) c),
      (h c _ (mem_ucRefs main_arg10 (by decide))).trans (Gen.V12_main_arg10 m (outsF m) c)⟩)
    (run_cond m ρ (outsF m) (outsF_ok m))

end Cert.KernelIdeal.Hand

end
-- ==== Proof.FrameBits.RegLib.lean ====
import proofs.«407712_j30391188586951_1_alg».proof.Proof.Gen.Kernel.Launch
import proofs.«407712_j30391188586951_1_alg».proof.Proof.Gen.Kernel.Skeleton
import proofs.«407712_j30391188586951_1_alg».proof.Proof.Gen.Kernel.Points
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

theorem vec00 : (![0, 0] : Fin 2 → ℕ) = fun _ => 0 := funext fun a => by fin_cases a <;> rfl

-- the program that reads two buffers whole and writes `f` of what it read over a third
def mapWhole {S1 : Shape} (o1 : Fin S1.rank → ℕ) (inb1 : ∀ a, o1 a + S1.size a ≤ S1.size a)
    (f : Vec F S5000x128 .f32 → Vec F S1 .f32 → FVec F S5000x128 .f32)
    (a0 : Memref sig .tc .vmem S5000x128 .f32) (a1 : Memref sig .tc .vmem S1 .f32) (a2 : Memref sig .tc .vmem S5000x128 .f32)
    (hl : a1.view.LoadsAt (Rect.unit o1 S1.size inb1).toLoadRect) :
    Prog (TpuEff nD τ sig (Elt F) Λ₀ .tc) PUnit := do
  let v0 ← Prog.lift (.load a0 (Rect.unit (s := S5000x128) ![0, 0] S5000x128.size inb_S5000x128_S5000x128_0_0).toLoadRect (View.loadsAt_vmem h_S5000x128))
  let v1 ← Prog.lift (.load a1 (Rect.unit o1 S1.size inb1).toLoadRect hl)
  let _ ← Prog.lift (.load a2 (Rect.unit (s := S5000x128) ![0, 0] S5000x128.size inb_S5000x128_S5000x128_0_0).toLoadRect (View.loadsAt_vmem h_S5000x128))
  Prog.lift (.store a2 (Rect.unit (s := S5000x128) ![0, 0] S5000x128.size inb_S5000x128_S5000x128_0_0) (f v0 v1) Finset.univ (View.stores_vmem_bits_univ h_S5000x128 rfl) (.inl rfl))
  pure ⟨⟩

-- from inputs `x0`, `x1` and any third buffer it ends with the inputs kept and the third at `f x0 x1`: its one store covers that buffer
theorem wp_mapWhole {S1 : Shape} {o1 : Fin S1.rank → ℕ} (hz1 : o1 = fun _ => 0) {inb1 : ∀ a, o1 a + S1.size a ≤ S1.size a}
    (f : Vec F S5000x128 .f32 → Vec F S1 .f32 → FVec F S5000x128 .f32) (c : Dev nD) {E : Set ℕ}
    {a0 : Memref sig .tc .vmem S5000x128 .f32} {a1 : Memref sig .tc .vmem S1 .f32}
    {a2 : Memref sig .tc .vmem S5000x128 .f32} {hl : a1.view.LoadsAt (Rect.unit o1 S1.size inb1).toLoadRect}
    {Φ O : sProp 𝕄} (x0 : Vec F S5000x128 .f32) (x1 : Vec F S1 .f32)
    {b0 : Vec F S5000x128 .f32 → Vec F S5000x128 .f32} (hb0 : ∀ d, b0 d = x0)
    {b1 : Vec F S1 .f32 → Vec F S1 .f32} (hb1 : ∀ d, b1 d = x1)
    {b2 : Vec F S5000x128 .f32 → Vec F S5000x128 .f32} :
    iprop(Φ ∗ O ∗ (∃ d, owns (c : Thread nD τ) a0 fullShare (b0 d)) ∗ (∃ d, owns (c : Thread nD τ) a1 fullShare (b1 d))
        ∗ (∃ d, owns (c : Thread nD τ) a2 fullShare (b2 d)))
      ⊢ wp frame (wpE (defs₀ (F := F)) Variants.none c none) E (mapWhole o1 inb1 f a0 a1 a2 hl) fun _ =>
        iprop(Φ ∗ O ∗ owns (c : Thread nD τ) a0 fullShare x0 ∗ owns (c : Thread nD τ) a1 fullShare x1
          ∗ owns (c : Thread nD τ) a2 fullShare (f x0 x1)) := by
  unfold mapWhole owns
  iintro ⟨HΦ, HO, ⟨%d0, %f0, %hf0, H0⟩, ⟨%d1, %f1, %hf1, H1⟩, ⟨%d2, %f2, -, H2⟩⟩
  rw [hb0] at hf0; rw [hb1] at hf1
  subst hf0 hf1
  sl_exec
  sl_step
  iframe
  isplitl [H0]
  · iexists f0; isplitr; · ipureintro; rfl
    iexact H0
  isplitl [H1]
  · iexists f1; isplitr; · ipureintro; rfl
    iexact H1
  iexists _; isplitr
  swap; · iexact H2
  ipureintro
  exact (View.read_writes_eq_canon _ _ _ fun y => ⟨_, List.mem_singleton_self _, View.mem_set_unit_zero vec00 inb_S5000x128_S5000x128_0_0 y⟩).trans <|
    (View.canon_unit_zero vec00 _ _).trans <| congrArg₂ f (View.ld_unit_zero vec00 _ _) (View.ld_unit_zero hz1 _ _)

end Cert.Kernel.Hand
-- ==== Proof.FrameBits.Reg0.lean ====
import proofs.«407712_j30391188586951_1_alg».proof.Proof.FrameBits.RegLib

noncomputable section

namespace Cert.Kernel.Hand

open Cert.Kernel Cert.Kernel.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def out0_2 (x0 : Vec F S5000x128 .f32) (x1 : Vec F S128x128 .f32) : Vec F S5000x128 .f32 := k0_pay1 x0 x1

theorem out0_2_eq (x0 : Vec F S5000x128 .f32) (x1 : Vec F S128x128 .f32) : out0_2 x0 x1 = k0_pay1 x0 x1 := rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl

theorem after0_2 (c : Dev nD) (t : Fin cfg0.N) : (dat0 V c).after 2 t = out0_2 (iblk0 V c 0 t) (iblk0 V c 1 t) := rfl

-- the body is `mapWhole` of `k0_pay1`, run on the two input windows' blocks, which it leaves in place
theorem body_obligation0 (c : Dev nD) : BodyObligation (dat0 (F := F) V c) (defs₀ (F := F)) Variants.none () Set.univ := fun t => by
  rw [bigSep_W0, bigSep_W0]
  change _ ⊢ wp _ _ _ (bodyAt0 t) _
  unfold bodyAt0
  rw [cc0__matmul_kernel_eq_skeleton]
  exact wp_mapWhole vec00 k0_pay1 c (iblk0 V c 0 t) (iblk0 V c 1 t)
    ((dat0 V c).before_in_eq_fetched 0 rfl (fun _ => rfl) (fun _ _ _ => rfl) (fun _ => rfl) t)
    ((dat0 V c).before_in_eq_fetched 1 rfl (fun _ => rfl) (fun _ _ _ => rfl) (fun _ => rfl) t)

end Cert.Kernel.Hand
-- ==== Proof.FrameBits.Reg1.lean ====
import proofs.«407712_j30391188586951_1_alg».proof.Proof.FrameBits.RegLib

noncomputable section

namespace Cert.Kernel.Hand

open Cert.Kernel Cert.Kernel.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def out1_2 (x0 : Vec F S5000x128 .f32) (x1 : Vec F S1x128 .f32) : Vec F S5000x128 .f32 := k1_pay1 x0 x1

theorem out1_2_eq (x0 : Vec F S5000x128 .f32) (x1 : Vec F S1x128 .f32) : out1_2 x0 x1 = k1_pay1 x0 x1 := rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = out1_2 (iblk1 V c 0 t) (iblk1 V c 1 t) := rfl

-- the body is `mapWhole` of `k1_pay1`, run on the two input windows' blocks, which it leaves in place
theorem body_obligation1 (c : Dev nD) : BodyObligation (dat1 (F := F) V c) (defs₀ (F := F)) Variants.none () Set.univ := fun t => by
  rw [bigSep_W1, bigSep_W1]
  change _ ⊢ wp _ _ _ (bodyAt1 t) _
  unfold bodyAt1
  rw [cc1__bias_act_kernel_eq_skeleton]
  exact wp_mapWhole vec00 k1_pay1 c (iblk1 V c 0 t) (iblk1 V c 1 t)
    ((dat1 V c).before_in_eq_fetched 0 rfl (fun _ => rfl) (fun _ _ _ => rfl) (fun _ => rfl) t)
    ((dat1 V c).before_in_eq_fetched 1 rfl (fun _ => rfl) (fun _ _ _ => rfl) (fun _ => rfl) t)

end Cert.Kernel.Hand
-- ==== Proof.FrameBits.Reg2.lean ====
import proofs.«407712_j30391188586951_1_alg».proof.Proof.FrameBits.RegLib

noncomputable section

namespace Cert.Kernel.Hand

open Cert.Kernel Cert.Kernel.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def out2_2 (x0 : Vec F S5000x128 .f32) (x1 : Vec F S128x128 .f32) : Vec F S5000x128 .f32 := k2_pay1 x0 x1

theorem out2_2_eq (x0 : Vec F S5000x128 .f32) (x1 : Vec F S128x128 .f32) : out2_2 x0 x1 = k2_pay1 x0 x1 := rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = out2_2 (iblk2 V c 0 t) (iblk2 V c 1 t) := rfl

-- the body is `mapWhole` of `k2_pay1`, run on the two input windows' blocks, which it leaves in place
theorem body_obligation2 (c : Dev nD) : BodyObligation (dat2 (F := F) V c) (defs₀ (F := F)) Variants.none () Set.univ := fun t => by
  rw [bigSep_W2, bigSep_W2]
  change _ ⊢ wp _ _ _ (bodyAt2 t) _
  unfold bodyAt2
  rw [cc2__matmul_kernel_eq_skeleton]
  exact wp_mapWhole vec00 k2_pay1 c (iblk2 V c 0 t) (iblk2 V c 1 t)
    ((dat2 V c).before_in_eq_fetched 0 rfl (fun _ => rfl) (fun _ _ _ => rfl) (fun _ => rfl) t)
    ((dat2 V c).before_in_eq_fetched 1 rfl (fun _ => rfl) (fun _ _ _ => rfl) (fun _ => rfl) t)

end Cert.Kernel.Hand
-- ==== Proof.FrameBits.Reg3.lean ====
import proofs.«407712_j30391188586951_1_alg».proof.Proof.FrameBits.RegLib

noncomputable section

namespace Cert.Kernel.Hand

open Cert.Kernel Cert.Kernel.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def out3_2 (x0 : Vec F S5000x128 .f32) (x1 : Vec F S1x128 .f32) : Vec F S5000x128 .f32 := k3_pay1 x0 x1

theorem out3_2_eq (x0 : Vec F S5000x128 .f32) (x1 : Vec F S1x128 .f32) : out3_2 x0 x1 = k3_pay1 x0 x1 := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = out3_2 (iblk3 V c 0 t) (iblk3 V c 1 t) := rfl

-- the body is `mapWhole` of `k3_pay1`, run on the two input windows' blocks, which it leaves in place
theorem body_obligation3 (c : Dev nD) : BodyObligation (dat3 (F := F) V c) (defs₀ (F := F)) Variants.none () Set.univ := fun t => by
  rw [bigSep_W3, bigSep_W3]
  change _ ⊢ wp _ _ _ (bodyAt3 t) _
  unfold bodyAt3
  rw [cc3__bias_act_kernel_eq_skeleton]
  exact wp_mapWhole vec00 k3_pay1 c (iblk3 V c 0 t) (iblk3 V c 1 t)
    ((dat3 V c).before_in_eq_fetched 0 rfl (fun _ => rfl) (fun _ _ _ => rfl) (fun _ => rfl) t)
    ((dat3 V c).before_in_eq_fetched 1 rfl (fun _ => rfl) (fun _ _ _ => rfl) (fun _ => rfl) t)

end Cert.Kernel.Hand
-- ==== Proof.FrameBits.Reg4.lean ====
import proofs.«407712_j30391188586951_1_alg».proof.Proof.FrameBits.RegLib

noncomputable section

namespace Cert.Kernel.Hand

open Cert.Kernel Cert.Kernel.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def out4_2 (x0 : Vec F S5000x128 .f32) (x1 : Vec F S128x128 .f32) : Vec F S5000x128 .f32 := k4_pay1 x0 x1

theorem out4_2_eq (x0 : Vec F S5000x128 .f32) (x1 : Vec F S128x128 .f32) : out4_2 x0 x1 = k4_pay1 x0 x1 := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl

theorem after4_2 (c : Dev nD) (t : Fin cfg4.N) : (dat4 V c).after 2 t = out4_2 (iblk4 V c 0 t) (iblk4 V c 1 t) := rfl

-- the body is `mapWhole` of `k4_pay1`, run on the two input windows' blocks, which it leaves in place
theorem body_obligation4 (c : Dev nD) : BodyObligation (dat4 (F := F) V c) (defs₀ (F := F)) Variants.none () Set.univ := fun t => by
  rw [bigSep_W4, bigSep_W4]
  change _ ⊢ wp _ _ _ (bodyAt4 t) _
  unfold bodyAt4
  rw [cc4__matmul_kernel_eq_skeleton]
  exact wp_mapWhole vec00 k4_pay1 c (iblk4 V c 0 t) (iblk4 V c 1 t)
    ((dat4 V c).before_in_eq_fetched 0 rfl (fun _ => rfl) (fun _ _ _ => rfl) (fun _ => rfl) t)
    ((dat4 V c).before_in_eq_fetched 1 rfl (fun _ => rfl) (fun _ _ _ => rfl) (fun _ => rfl) t)

end Cert.Kernel.Hand
-- ==== Proof.FrameBits.Reg5.lean ====
import proofs.«407712_j30391188586951_1_alg».proof.Proof.FrameBits.RegLib

noncomputable section

namespace Cert.Kernel.Hand

open Cert.Kernel Cert.Kernel.Gen Idealize.ShloMosaic Idealize.ShloMosaic.TcCoe
open Idealize.SL Idealize.SL.RA Idealize.SL.BI Idealize.SL.BI.BIBase Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def out5_2 (x0 : Vec F S5000x128 .f32) (x1 : Vec F S1x128 .f32) : Vec F S5000x128 .f32 := k5_pay1 x0 x1

theorem out5_2_eq (x0 : Vec F S5000x128 .f32) (x1 : Vec F S1x128 .f32) : out5_2 x0 x1 = k5_pay1 x0 x1 := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = out5_2 (iblk5 V c 0 t) (iblk5 V c 1 t) := rfl

-- the body is `mapWhole` of `k5_pay1`, run on the two input windows' blocks, which it leaves in place
theorem body_obligation5 (c : Dev nD) : BodyObligation (dat5 (F := F) V c) (defs₀ (F := F)) Variants.none () Set.univ := fun t => by
  rw [bigSep_W5, bigSep_W5]
  change _ ⊢ wp _ _ _ (bodyAt5 t) _
  unfold bodyAt5
  rw [cc5__bias_act_kernel_eq_skeleton]
  exact wp_mapWhole vec00 k5_pay1 c (iblk5 V c 0 t) (iblk5 V c 1 t)
    ((dat5 V c).before_in_eq_fetched 0 rfl (fun _ => rfl) (fun _ _ _ => rfl) (fun _ => rfl) t)
    ((dat5 V c).before_in_eq_fetched 1 rfl (fun _ => rfl) (fun _ _ _ => rfl) (fun _ => rfl) t)

end Cert.Kernel.Hand
-- ==== Proof.FrameBits.Reg6Defs.lean ====
import proofs.«407712_j30391188586951_1_alg».proof.Proof.Gen.Kernel.Launch
import proofs.«407712_j30391188586951_1_alg».proof.Proof.Gen.Kernel.Skeleton
import proofs.«407712_j30391188586951_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def acc6 (c : Dev nD) : (n : ℕ) → n < cfg6.N → Vec F S512x128 .f32 × Vec F S512x128 .f32
  | 0, h => (k6_pay4 (iblk6 V c 1 ⟨0, h⟩) (iblk6 V c 0 ⟨0, h⟩) k6_pay1, k6_pay5 (iblk6 V c 1 ⟨0, h⟩) k6_pay2)
  | n + 1, h => (k6_pay4 (iblk6 V c 1 ⟨n + 1, h⟩) (iblk6 V c 0 ⟨n + 1, h⟩) (acc6 c n (Nat.lt_of_succ_lt h)).1, k6_pay5 (iblk6 V c 1 ⟨n + 1, h⟩) (acc6 c n (Nat.lt_of_succ_lt h)).2)

theorem acc6_pos (c : Dev nD) (t : Fin cfg6.N) (ht : t.val ≠ 0) :
    acc6 V c t.val t.isLt = (k6_pay4 (iblk6 V c 1 t) (iblk6 V c 0 t) (acc6 V c (t.val - 1) (Nat.lt_of_le_of_lt (Nat.sub_le _ _) t.isLt)).1, k6_pay5 (iblk6 V c 1 t) (acc6 V c (t.val - 1) (Nat.lt_of_le_of_lt (Nat.sub_le _ _) t.isLt)).2) := by
  obtain ⟨n, hn⟩ := t
  cases n with
  | zero => exact absurd rfl ht
  | succ n => rfl

theorem acc6_first (c : Dev nD) (t : Fin cfg6.N) (ht : t.val = 0) :
    acc6 V c t.val t.isLt = (k6_pay4 (iblk6 V c 1 t) (iblk6 V c 0 t) k6_pay1, k6_pay5 (iblk6 V c 1 t) k6_pay2) := by
  obtain ⟨n, hn⟩ := t
  cases n with
  | zero => rfl
  | succ n => exact absurd ht (Nat.succ_ne_zero n)

def out6_4 (c : Dev nD) (t : Fin cfg6.N) : Vec F S512x128 .f32 :=
  k6_pay6 (acc6 V c t.val t.isLt).1 (acc6 V c t.val t.isLt).2 (iblk6 V c 2 t) (iblk6 V c 3 t)

abbrev scM6_0 : Memref sig .tc .vmem S512x128 .f32 := Memref.whole cc6_scratch0
abbrev scM6_1 : Memref sig .tc .vmem S512x128 .f32 := Memref.whole cc6_scratch1

def PhiS6 (c : Dev nD) : (n : ℕ) → n ≤ cfg6.N → sProp 𝕄
  | 0, _ => Pipeline.ΦA spec6 c
  | n + 1, hn => iprop(iprop(iprop(owns (c : Thread nD τ) scM6_0 fullShare (acc6 V c n hn).1 ∗ owns (c : Thread nD τ) scM6_1 fullShare (acc6 V c n hn).2) ∗ Pipeline.scopedRestBut spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (acc6 V c n hn).1 ∗ owns (c : Thread nD τ) scM6_1 fullShare (acc6 V c n hn).2) ∗ Pipeline.scopedRestBut spec6 c [cc6_scratch0, cc6_scratch1]) ∗ (∃ r, prngReg c r)) := rfl

theorem PhiS6_pos (c : Dev nD) (n : ℕ) (h : n ≤ cfg6.N) (hz : n ≠ 0) :
    PhiS6 V c n h = iprop(iprop(iprop(owns (c : Thread nD τ) scM6_0 fullShare (acc6 V c (n - 1) (by omega)).1 ∗ owns (c : Thread nD τ) scM6_1 fullShare (acc6 V c (n - 1) (by omega)).2) ∗ Pipeline.scopedRestBut spec6 c [cc6_scratch0, cc6_scratch1]) ∗ (∃ r, prngReg c r)) := by
  cases n with
  | zero => exact absurd rfl hz
  | succ n => rfl

theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d)) ∗ Pipeline.scopedRestBut spec6 c [cc6_scratch0, cc6_scratch1]) ∗ (∃ r, prngReg c r)) := by
  unfold Pipeline.ΦA; rw [scopedRest6_split]; simp only [scM6_0, scM6_1, owns_whole]; try rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => out6_4 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = out6_4 V c t := by dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

end Cert.Kernel.Hand

end
-- ==== Proof.FrameBits.Reg6Body.lean ====
import proofs.«407712_j30391188586951_1_alg».proof.Proof.Gen.Kernel.Skeleton
import proofs.«407712_j30391188586951_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

abbrev cond6_0 (i : grid6.Coords) : Prop :=
  (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 49 :=
  (by decide +kernel : ∀ t : Fin grid6.N, cond6_1 (grid6.coords t) ↔ t.val = 49)

theorem liveAt6_0 : ∀ t : Fin cfg6.N, cfg6.idle 0 (grid6.coords t) = false := fun _ => rfl
theorem liveAt6_1 : ∀ t : Fin cfg6.N, cfg6.idle 1 (grid6.coords t) = false := fun _ => rfl
theorem liveAt6_2 : ∀ t : Fin cfg6.N, cfg6.idle 2 (grid6.coords t) = false := fun _ => rfl
theorem liveAt6_3 : ∀ t : Fin cfg6.N, cfg6.idle 3 (grid6.coords t) = false := fun _ => rfl

theorem idleAt6_4 : ∀ t : Fin cfg6.N, ¬cond6_1 (grid6.coords t) → cfg6.idle 4 (grid6.coords t) = true := by decide +kernel

theorem noFlush6_4 : ∀ t : Fin cfg6.N, ¬cond6_1 (grid6.coords t) → (cfg6.win 4).flush t = false := by decide +kernel

theorem liveAt6_4 : ∀ t : Fin cfg6.N, cond6_1 (grid6.coords t) → cfg6.idle 4 (grid6.coords t) = false := by decide +kernel

theorem hz6 : (![0, 0] : Fin 2 → Nat) = fun _ => 0 := funext fun a => by fin_cases a <;> rfl

theorem read_writes_cons_unit_zero6 {sig : RefSig} {κ : Kind} {sp : Space} {S : Shape} {e : EltTy} {Val : EltTy → Type}
    [∀ e, Nonempty (Val e)] (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

variable (c : Dev nD) (i : grid6.Coords) (arg1 : Memref sig .tc .vmem S2000x128 .f32) (harg1 : arg1.IsWhole) (arg2 : Memref sig .tc .vmem S2000x1 .i32) (harg2 : arg2.IsWhole) (arg3 : Memref sig .tc .vmem S128x128 .f32) (harg3 : arg3.IsWhole) (arg4 : Memref sig .tc .vmem S1x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole)

set_option maxHeartbeats 1000000 in
theorem body6_first (hc0 : cond6_0 i) (hc1 : ¬cond6_1 i)
    (x0 : Vec F S2000x128 .f32) (x1 : Vec F S2000x1 .i32) (E : Set ℕ) (K : PUnit → sProp 𝕄) :
    iprop(owns (c : Thread nD τ) arg1 fullShare x0 ∗ owns (c : Thread nD τ) arg2 fullShare x1
          ∗ (∃ d, owns (c : Thread nD τ) arg6 fullShare d) ∗ (∃ d, owns (c : Thread nD τ) arg7 fullShare d)
          ∗ (iprop(owns (c : Thread nD τ) arg1 fullShare x0 ∗ owns (c : Thread nD τ) arg2 fullShare x1
                ∗ owns (c : Thread nD τ) arg6 fullShare (k6_pay4 x1 x0 k6_pay1) ∗ owns (c : Thread nD τ) arg7 fullShare (k6_pay5 x1 k6_pay2)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%d6, %f6, -, H6⟩, ⟨%d7, %f7, -, H7⟩, Hk⟩
  obtain rfl := harg1.eq_unread hf0; obtain rfl := harg2.eq_unread hf1
  sl_exec (disch := first | exact hc0 | exact hc1)
  sl_step
  iapply Hk
  isplitl [H0]; swap; isplitl [H1]; swap; isplitl [H6]; swap
  all_goals
    iexists _; isplitr; swap; · iassumption
    ipureintro
    first
    | exact Memref.IsWhole.read_unread ‹_› _
    | sl_unfold_words
      rw [read_writes_cons_unit_zero6 _ _ hz6]
      simp only [View.readAt_eq_ld, Memref.IsWhole.read_unread, View.ld_unit_zero (S := S2000x128) hz6, View.ld_unit_zero (S := S2000x1) hz6, View.ld_unit_zero (S := S512x128) hz6, View.ld_unit_zero (S := S128x128) hz6, View.ld_unit_zero (S := S1x128) hz6, View.readCov_unit_zero (S := S512x128) _ hz6]

set_option maxHeartbeats 1000000 in
theorem body6_mid (hc0 : ¬cond6_0 i) (hc1 : ¬cond6_1 i)
    (x0 : Vec F S2000x128 .f32) (x1 : Vec F S2000x1 .i32) (xs0 xs1 : Vec F S512x128 .f32) (E : Set ℕ) (K : PUnit → sProp 𝕄) :
    iprop(owns (c : Thread nD τ) arg1 fullShare x0 ∗ owns (c : Thread nD τ) arg2 fullShare x1
          ∗ owns (c : Thread nD τ) arg6 fullShare xs0 ∗ owns (c : Thread nD τ) arg7 fullShare xs1
          ∗ (iprop(owns (c : Thread nD τ) arg1 fullShare x0 ∗ owns (c : Thread nD τ) arg2 fullShare x1
                ∗ owns (c : Thread nD τ) arg6 fullShare (k6_pay4 x1 x0 xs0) ∗ owns (c : Thread nD τ) arg7 fullShare (k6_pay5 x1 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%f6, %hf6, H6⟩, ⟨%f7, %hf7, H7⟩, Hk⟩
  obtain rfl := harg1.eq_unread hf0; obtain rfl := harg2.eq_unread hf1
  obtain rfl := harg6.eq_unread hf6; obtain rfl := harg7.eq_unread hf7
  sl_exec (disch := first | exact hc0 | exact hc1)
  sl_step
  iapply Hk
  isplitl [H0]; swap; isplitl [H1]; swap; isplitl [H6]; swap
  all_goals
    iexists _; isplitr; swap; · iassumption
    ipureintro
    first
    | exact Memref.IsWhole.read_unread ‹_› _
    | sl_unfold_words
      rw [read_writes_cons_unit_zero6 _ _ hz6]
      simp only [View.readAt_eq_ld, Memref.IsWhole.read_unread, View.ld_unit_zero (S := S2000x128) hz6, View.ld_unit_zero (S := S2000x1) hz6, View.ld_unit_zero (S := S512x128) hz6, View.ld_unit_zero (S := S128x128) hz6, View.ld_unit_zero (S := S1x128) hz6, View.readCov_unit_zero (S := S512x128) _ hz6]

set_option maxHeartbeats 1000000 in
theorem body6_last (hc0 : ¬cond6_0 i) (hc1 : cond6_1 i)
    (x0 : Vec F S2000x128 .f32) (x1 : Vec F S2000x1 .i32) (x2 : Vec F S128x128 .f32) (x3 : Vec F S1x128 .f32)
    (xs0 xs1 : Vec F S512x128 .f32) (E : Set ℕ) (K : PUnit → sProp 𝕄) :
    iprop(owns (c : Thread nD τ) arg1 fullShare x0 ∗ owns (c : Thread nD τ) arg2 fullShare x1
          ∗ owns (c : Thread nD τ) arg3 fullShare x2 ∗ owns (c : Thread nD τ) arg4 fullShare x3
          ∗ (∃ d, owns (c : Thread nD τ) arg5 fullShare d)
          ∗ owns (c : Thread nD τ) arg6 fullShare xs0 ∗ owns (c : Thread nD τ) arg7 fullShare xs1
          ∗ (iprop(owns (c : Thread nD τ) arg1 fullShare x0 ∗ owns (c : Thread nD τ) arg2 fullShare x1
                ∗ owns (c : Thread nD τ) arg3 fullShare x2 ∗ owns (c : Thread nD τ) arg4 fullShare x3
                ∗ owns (c : Thread nD τ) arg5 fullShare (k6_pay6 (k6_pay4 x1 x0 xs0) (k6_pay5 x1 xs1) x2 x3)
                ∗ owns (c : Thread nD τ) arg6 fullShare (k6_pay4 x1 x0 xs0) ∗ owns (c : Thread nD τ) arg7 fullShare (k6_pay5 x1 xs1)) -∗ K ⟨⟩))
      ⊢ wp frame (wpE (defs₀ (F := F)) Variants.none c none) E (cc6__pool_kernel i arg1 harg1 arg2 harg2 arg3 harg3 arg4 harg4 arg5 harg5 arg6 harg6 arg7 harg7) K := by
  simp only [cc6__pool_kernel_eq_skeleton]; unfold cc6__pool_kernel_skel
  unfold owns
  iintro ⟨⟨%f0, %hf0, H0⟩, ⟨%f1, %hf1, H1⟩, ⟨%f2, %hf2, H2⟩, ⟨%f3, %hf3, H3⟩, ⟨%d5, %f5, -, H5⟩, ⟨%f6, %hf6, H6⟩, ⟨%f7, %hf7, H7⟩, Hk⟩
  obtain rfl := harg1.eq_unread hf0; obtain rfl := harg2.eq_unread hf1
  obtain rfl := harg3.eq_unread hf2; obtain rfl := harg4.eq_unread hf3
  obtain rfl := harg6.eq_unread hf6; obtain rfl := harg7.eq_unread hf7
  sl_exec (disch := first | exact hc0 | exact hc1)
  sl_step
  iapply Hk
  isplitl [H0]; swap; isplitl [H1]; swap; isplitl [H2]; swap; isplitl [H3]; swap; isplitl [H5]; swap; isplitl [H6]; swap
  all_goals
    iexists _; isplitr; swap; · iassumption
    ipureintro
    first
    | exact Memref.IsWhole.read_unread ‹_› _
    | sl_unfold_words
      rw [read_writes_cons_unit_zero6 _ _ hz6]
      simp only [View.readAt_eq_ld, Memref.IsWhole.read_unread, View.ld_unit_zero (S := S2000x128) hz6, View.ld_unit_zero (S := S2000x1) hz6, View.ld_unit_zero (S := S512x128) hz6, View.ld_unit_zero (S := S128x128) hz6, View.ld_unit_zero (S := S1x128) hz6, View.readCov_unit_zero (S := S512x128) _ hz6]

end Cert.Kernel.Hand

end
-- ==== Proof.FrameBits.Reg6.lean ====
import proofs.«407712_j30391188586951_1_alg».proof.Proof.FrameBits.Reg6Defs
import proofs.«407712_j30391188586951_1_alg».proof.Proof.FrameBits.Reg6Body

noncomputable section

namespace Cert.Kernel.Hand

open Cert.Kernel.Gen Idealize.ShloMosaic Idealize.ShloMosaic.TcCoe
open Idealize.SL Idealize.SL.RA Idealize.SL.BI Idealize.SL.BI.BIBase Idealize.SL.ProofMode Idealize.SL.Sem
open scoped Idealize.SL.BI
open Idealize.ShloMosaic.Pipeline (Dat BodyObligation)

variable {F : FTy → Type} [FloatOps F]

variable (V : (c : Dev nD) → (b : Ref sig .tc) → Buf (Elt F) ((c : Thread nD τ).loc b))

theorem before6_0 (c : Dev nD) (t : Fin cfg6.N) (d) : (dat6 V c).before 0 t d = iblk6 V c 0 t :=
  (dat6 V c).before_in_eq_fetched 0 rfl (fun _ => rfl) (fun _ _ _ => rfl) (fun _ => rfl) t d
theorem before6_1 (c : Dev nD) (t : Fin cfg6.N) (d) : (dat6 V c).before 1 t d = iblk6 V c 1 t :=
  (dat6 V c).before_in_eq_fetched 1 rfl (fun _ => rfl) (fun _ _ _ => rfl) (fun _ => rfl) t d
theorem before6_2 (c : Dev nD) (t : Fin cfg6.N) (d) : (dat6 V c).before 2 t d = iblk6 V c 2 t :=
  (dat6 V c).before_in_eq_fetched 2 rfl (fun _ => rfl) (fun _ _ _ => rfl) (fun _ => rfl) t d
theorem before6_3 (c : Dev nD) (t : Fin cfg6.N) (d) : (dat6 V c).before 3 t d = iblk6 V c 3 t :=
  (dat6 V c).before_in_eq_fetched 3 rfl (fun _ => rfl) (fun _ _ _ => rfl) (fun _ => rfl) t d

-- three cases by the point: the first starts the two running values from constants, a later one updates them, the last also writes the output from them
set_option maxHeartbeats 4000000 in
theorem body_obligation6 (c : Dev nD) : BodyObligation (dat6 (F := F) V c) (defs₀ (F := F)) Variants.none () Set.univ := fun t => by
  rw [bigSep_W6, bigSep_W6]
  change iprop(PhiS6 V c t.val (Nat.le_of_lt t.isLt) ∗ (dat6 V c).owesAt () t.castSucc ∗ _)
    ⊢ wp _ _ _ (bodyAt6 t) fun _ => iprop(PhiS6 V c (t.val + 1) t.isLt ∗ (dat6 V c).owesAt () t.castSucc
      ∗ owns _ _ _ (iblk6 V c 0 t) ∗ owns _ _ _ (iblk6 V c 1 t) ∗ owns _ _ _ (iblk6 V c 2 t) ∗ owns _ _ _ (iblk6 V c 3 t)
      ∗ (dat6 V c).leavesExact 4 t)
  unfold bodyAt6
  simp only [before6_0, before6_1, before6_2, before6_3]
  rw [PhiS6_succ]
  by_cases h0 : t.val = 0
  · have hc0 := (hcond6_0 t).mpr h0
    have hc1 : ¬cond6_1 (grid6.coords t) := fun h => by have := (hcond6_1 t).mp h; omega
    rw [Dat.leavesExact_idle (dat6 V c) 4 t (idleAt6_4 t hc1) (noFlush6_4 t hc1), acc6_first V c t h0]; dsimp only
    rw [PhiS6_zero V c _ _ h0, PhiA6_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (body6_first c _ _ _ _ _ _ _ _ _ _ _ _ _ _ _ hc0 hc1 _ _ _ _)
    iframe
    iintro ⟨H0, H1, HS0, HS1⟩
    iframe
    iexists _; iexact H4
  · have hc0 : ¬cond6_0 (grid6.coords t) := fun h => h0 ((hcond6_0 t).mp h)
    by_cases h1 : t.val = 49
    · have hc1 := (hcond6_1 t).mpr h1
      rw [show (dat6 V c).leavesExact 4 t = owns (c : Thread nD τ) _ fullShare ((dat6 V c).after 4 t) from by
        unfold Dat.leavesExact; rw [liveAt6_4 t hc1], after6_4]
      unfold out6_4
      rw [acc6_pos V c t h0]; dsimp only
      rw [PhiS6_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (body6_last c _ _ _ _ _ _ _ _ _ _ _ _ _ _ _ hc0 hc1 _ _ _ _ _ _ _ _)
      iframe
      isplitl [H4]; · iexists _; iexact H4
      iintro ⟨H0, H1, H2, H3, H4, HS0, HS1⟩
      iframe
    · have hc1 : ¬cond6_1 (grid6.coords t) := fun h => h1 ((hcond6_1 t).mp h)
      rw [Dat.leavesExact_idle (dat6 V c) 4 t (idleAt6_4 t hc1) (noFlush6_4 t hc1), acc6_pos V c t h0]; dsimp only
      rw [PhiS6_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (body6_mid c _ _ _ _ _ _ _ _ _ _ _ _ _ _ _ hc0 hc1 _ _ _ _ _ _)
      iframe
      iintro ⟨H0, H1, HS0, HS1⟩
      iframe
      iexists _; iexact H4

theorem hin6 (c : Dev nD) : Pipeline.ΦA spec6 c ⊢ (dat6 V c).Φ 0 := by
  rw [show (dat6 V c).Φ 0 = PhiS6 V c 0 (Nat.zero_le _) from rfl, PhiS6_zero V c 0 _ rfl]

theorem hout6 (c : Dev nD) : (dat6 V c).Φ (Fin.last cfg6.N) ⊢ Pipeline.ΦA spec6 c := by
  rw [show (dat6 V c).Φ (Fin.last cfg6.N) = PhiS6 V c cfg6.N (Nat.le_refl _) from rfl,
    PhiS6_pos V c _ _ (by rw [show cfg6.N = 50 from N_6]; decide), PhiA6_eq]
  iintro ⟨⟨⟨HS0, HS1⟩, HR⟩, Hg⟩
  iframe
  isplitl [HS0] <;> iexists _ <;> iassumption

end Cert.Kernel.Hand
-- ==== Proof.FrameBits.Outs.lean ====
import proofs.«407712_j30391188586951_1_alg».proof.Proof.FrameBits.Reg0
import proofs.«407712_j30391188586951_1_alg».proof.Proof.FrameBits.Reg1
import proofs.«407712_j30391188586951_1_alg».proof.Proof.FrameBits.Reg2
import proofs.«407712_j30391188586951_1_alg».proof.Proof.FrameBits.Reg3
import proofs.«407712_j30391188586951_1_alg».proof.Proof.FrameBits.Reg4
import proofs.«407712_j30391188586951_1_alg».proof.Proof.FrameBits.Reg5
import proofs.«407712_j30391188586951_1_alg».proof.Proof.FrameBits.Reg6
import proofs.«407712_j30391188586951_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

-- `outs` are what each region leaves in its output array, computed from the valuation the region is entered at
structure OutsOK (outs : Gen.Outs (F := F)) : Prop where
  o2  : ∀ c, outs 2 main_v27 c  = (dat0 (fun c b => Gen.V1 m c b) c).arrAt 2 cfg0.N
  o4  : ∀ c, outs 4 main_v42 c  = (dat1 (fun c b => Gen.V3 m outs c b) c).arrAt 2 cfg1.N
  o5  : ∀ c, outs 5 main_v43 c  = (dat2 (fun c b => Gen.V4 m outs c b) c).arrAt 2 cfg2.N
  o7  : ∀ c, outs 7 main_v58 c  = (dat3 (fun c b => Gen.V6 m outs c b) c).arrAt 2 cfg3.N
  o8  : ∀ c, outs 8 main_v59 c  = (dat4 (fun c b => Gen.V7 m outs c b) c).arrAt 2 cfg4.N
  o10 : ∀ c, outs 10 main_v74 c = (dat5 (fun c b => Gen.V9 m outs c b) c).arrAt 2 cfg5.N
  o12 : ∀ c, outs 12 main_v77 c = (dat6 (fun c b => Gen.V11 m outs c b) c).arrAt 4 cfg6.N

def U1 (c : Dev nD) : Valuation τ sig (Elt F) := Gen.V1 m c

def U2 (c : Dev nD) : Valuation τ sig (Elt F) :=
  Function.update (U1 m c) main_v27 ((dat0 (fun c b => U1 m c b) c).arrAt 2 cfg0.N)

def U3 (c : Dev nD) : Valuation τ sig (Elt F) := StableHlo.after hostOps1 (U2 m c)

def U4 (c : Dev nD) : Valuation τ sig (Elt F) :=
  Function.update (U3 m c) main_v42 ((dat1 (fun c b => U3 m c b) c).arrAt 2 cfg1.N)

def U5 (c : Dev nD) : Valuation τ sig (Elt F) :=
  Function.update (U4 m c) main_v43 ((dat2 (fun c b => U4 m c b) c).arrAt 2 cfg2.N)

def U6 (c : Dev nD) : Valuation τ sig (Elt F) := StableHlo.after hostOps3 (U5 m c)

def U7 (c : Dev nD) : Valuation τ sig (Elt F) :=
  Function.update (U6 m c) main_v58 ((dat3 (fun c b => U6 m c b) c).arrAt 2 cfg3.N)

def U8 (c : Dev nD) : Valuation τ sig (Elt F) :=
  Function.update (U7 m c) main_v59 ((dat4 (fun c b => U7 m c b) c).arrAt 2 cfg4.N)

def U9 (c : Dev nD) : Valuation τ sig (Elt F) := StableHlo.after hostOps5 (U8 m c)

def U10 (c : Dev nD) : Valuation τ sig (Elt F) :=
  Function.update (U9 m c) main_v74 ((dat5 (fun c b => U9 m c b) c).arrAt 2 cfg5.N)

def U11 (c : Dev nD) : Valuation τ sig (Elt F) := StableHlo.after hostOps6 (U10 m c)

def U12 (c : Dev nD) : Valuation τ sig (Elt F) :=
  Function.update (U11 m c) main_v77 ((dat6 (fun c b => U11 m c b) c).arrAt 4 cfg6.N)

-- those contents, built from the launch memory alone
def outsF : Gen.Outs (F := F) := fun J r c =>
  match J with
  | 2 => U2 m c r
  | 4 => U4 m c r
  | 5 => U5 m c r
  | 7 => U7 m c r
  | 8 => U8 m c r
  | 10 => U10 m c r
  | 12 => U12 m c r
  | _ => U1 m c r

theorem V2_eq (c : Dev nD) : Gen.V2 m (outsF m) c = U2 m c := by
  show Function.update (Gen.V1 m c) main_v27 (U2 m c main_v27) = U2 m c
  unfold U2; rw [Function.update_self]; rfl
theorem V3_eq (c : Dev nD) : Gen.V3 m (outsF m) c = U3 m c :=
  congrArg (StableHlo.after hostOps1) (V2_eq m c)
theorem V4_eq (c : Dev nD) : Gen.V4 m (outsF m) c = U4 m c := by
  show Function.update (Gen.V3 m (outsF m) c) main_v42 (U4 m c main_v42) = U4 m c
  rw [V3_eq]; unfold U4; rw [Function.update_self]
theorem V5_eq (c : Dev nD) : Gen.V5 m (outsF m) c = U5 m c := by
  show Function.update (Gen.V4 m (outsF m) c) main_v43 (U5 m c main_v43) = U5 m c
  rw [V4_eq]; unfold U5; rw [Function.update_self]
theorem V6_eq (c : Dev nD) : Gen.V6 m (outsF m) c = U6 m c :=
  congrArg (StableHlo.after hostOps3) (V5_eq m c)
theorem V7_eq (c : Dev nD) : Gen.V7 m (outsF m) c = U7 m c := by
  show Function.update (Gen.V6 m (outsF m) c) main_v58 (U7 m c main_v58) = U7 m c
  rw [V6_eq]; unfold U7; rw [Function.update_self]
theorem V8_eq (c : Dev nD) : Gen.V8 m (outsF m) c = U8 m c := by
  show Function.update (Gen.V7 m (outsF m) c) main_v59 (U8 m c main_v59) = U8 m c
  rw [V7_eq]; unfold U8; rw [Function.update_self]
theorem V9_eq (c : Dev nD) : Gen.V9 m (outsF m) c = U9 m c :=
  congrArg (StableHlo.after hostOps5) (V8_eq m c)
theorem V10_eq (c : Dev nD) : Gen.V10 m (outsF m) c = U10 m c := by
  show Function.update (Gen.V9 m (outsF m) c) main_v74 (U10 m c main_v74) = U10 m c
  rw [V9_eq]; unfold U10; rw [Function.update_self]
theorem V11_eq (c : Dev nD) : Gen.V11 m (outsF m) c = U11 m c :=
  congrArg (StableHlo.after hostOps6) (V10_eq m c)
theorem outsF_ok : OutsOK m (outsF m) where
  o2 c := by
    show U2 m c main_v27 = _
    unfold U2; rw [Function.update_self]; rfl
  o4 c := by
    rw [show (fun (c : Dev nD) (b : Ref sig .tc) => Gen.V3 m (outsF m) c b) = fun (c : Dev nD) (b : Ref sig .tc) => U3 m c b from
      funext fun c => by rw [V3_eq]]
    show U4 m c main_v42 = _
    unfold U4; rw [Function.update_self]
  o5 c := by
    rw [show (fun (c : Dev nD) (b : Ref sig .tc) => Gen.V4 m (outsF m) c b) = fun (c : Dev nD) (b : Ref sig .tc) => U4 m c b from
      funext fun c => by rw [V4_eq]]
    show U5 m c main_v43 = _
    unfold U5; rw [Function.update_self]
  o7 c := by
    rw [show (fun (c : Dev nD) (b : Ref sig .tc) => Gen.V6 m (outsF m) c b) = fun (c : Dev nD) (b : Ref sig .tc) => U6 m c b from
      funext fun c => by rw [V6_eq]]
    show U7 m c main_v58 = _
    unfold U7; rw [Function.update_self]
  o8 c := by
    rw [show (fun (c : Dev nD) (b : Ref sig .tc) => Gen.V7 m (outsF m) c b) = fun (c : Dev nD) (b : Ref sig .tc) => U7 m c b from
      funext fun c => by rw [V7_eq]]
    show U8 m c main_v59 = _
    unfold U8; rw [Function.update_self]
  o10 c := by
    rw [show (fun (c : Dev nD) (b : Ref sig .tc) => Gen.V9 m (outsF m) c b) = fun (c : Dev nD) (b : Ref sig .tc) => U9 m c b from
      funext fun c => by rw [V9_eq]]
    show U10 m c main_v74 = _
    unfold U10; rw [Function.update_self]
  o12 c := by
    rw [show (fun (c : Dev nD) (b : Ref sig .tc) => Gen.V11 m (outsF m) c b) = fun (c : Dev nD) (b : Ref sig .tc) => U11 m c b from
      funext fun c => by rw [V11_eq]]
    show U12 m c main_v77 = _
    unfold U12; rw [Function.update_self]

end Cert.Kernel.Hand

end
-- ==== Proof.FrameBits.SegsBase.lean ====
import proofs.«407712_j30391188586951_1_alg».proof.Proof.FrameBits.Outs
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev Lno : GSem nD τ sig → Finset Unit := fun _ => ∅
abbrev lv0 : GSem nD τ sig → Unit → ℕ := fun _ _ => 0

abbrev Rst (c : Dev nD) : sProp 𝕄 :=
  iprop((∃ r, prngReg c r) ∗ ∃ W, owes (c : Thread nD τ) (0 : CellTallies nD τ sig Unit) W)

variable (m : (ℓ : Loc nD τ sig) → Buf (Elt F) ℓ) (outs : Gen.Outs (F := F))

-- every region's proof data, each at the valuation its region is entered at
def pdats : (p : Fin 7) → (c : Dev nD) → Dat τ (Elt F) Unit ℕ (UR sig nD τ) ℕ (Pipeline.pin (pcfgs (F := F)) Gen.adm p) c
  | ⟨0, _⟩ => fun c => dat0 (fun c b => Gen.V1 m c b) c
  | ⟨1, _⟩ => fun c => dat1 (fun c b => Gen.V3 m outs c b) c
  | ⟨2, _⟩ => fun c => dat2 (fun c b => Gen.V4 m outs c b) c
  | ⟨3, _⟩ => fun c => dat3 (fun c b => Gen.V6 m outs c b) c
  | ⟨4, _⟩ => fun c => dat4 (fun c b => Gen.V7 m outs c b) c
  | ⟨5, _⟩ => fun c => dat5 (fun c b => Gen.V9 m outs c b) c
  | ⟨6, _⟩ => fun c => dat6 (fun c b => Gen.V11 m outs c b) c

theorem PhiA_in {gr W : Nat} (win : Fin W → Pipeline.WinSpec sig gr) (c : Dev nD) (P : sProp 𝕄) :
    iprop((∃ r, prngReg c r) ∗ P ∗ Pipeline.scopedRest win c) ⊢ (Pipeline.ΦA (U := UR sig nD τ) (Val := Elt F) win c : sProp 𝕄) := by
  unfold Pipeline.ΦA
  iintro ⟨Hp, -, Hr⟩
  isplitl [Hr]; · iexact Hr
  iexact Hp

theorem PhiA_out {gr W : Nat} (win : Fin W → Pipeline.WinSpec sig gr) (c : Dev nD) :
    (Pipeline.ΦA (U := UR sig nD τ) (Val := Elt F) win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

end Cert.Kernel.Hand

end
-- ==== Proof.FrameBits.Segs.lean ====
import proofs.«407712_j30391188586951_1_alg».proof.Proof.FrameBits.SegsBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (outs : Gen.Outs (F := F))

-- What holds of every region's data alike, proved once by cases on the region.
theorem pdats_plain (p : Fin 7) (c : Dev nD) :
    (∀ t, (pdats m outs p c).owed t = 0) ∧ (∀ w, (pdats m outs p c).q w = fullShare)
      ∧ (pdats m outs p c).recorded 0 = Set.univ := by
  fin_cases p <;> exact ⟨fun _ => rfl, fun _ => rfl, rfl⟩

abbrev Region (p : Fin 7) := Pipeline.RegionSeg (pcfgs (F := F)) Gen.adm (pdats m outs) () defs₀ Variants.none Lno lv0 p

set_option backward.isDefEq.respectTransparency.types false in
-- A region with one output window `o`, left at the entry valuation updated at the output array with the region's result.
def segOf (p : Fin 7) (launch : Pipeline.LaunchFacts (nD := nD) (τ := τ) cfgs p)
    (entV extV : Dev nD → Valuation τ sig (Elt F))
    (hbody : ∀ c, BodyObligation (pdats m outs p c) defs₀ Variants.none () Set.univ)
    (hA : ∀ c w, (pdats m outs p c).A w = entV c (Pipeline.arrRef (cfgs p).spec w))
    (o : Fin (cfgs p).W) (hio : ∀ w, w ≠ o → ((cfgs p).win w).isOut = false)
    {x : (c : Dev nD) → Buf (Elt F) ((c : Thread nD τ).loc (Pipeline.arrRef (cfgs p).spec o))}
    (hx : ∀ c, x c = (pdats m outs p c).arrAt o (cfgs p).N)
    (hext : ∀ c, extV c = Function.update (entV c) (Pipeline.arrRef (cfgs p).spec o) (x c))
    (hin : ∀ c, Pipeline.ΦA (cfgs p).spec c ⊢ (pdats m outs p c).Φ 0)
    (hout : ∀ c, (pdats m outs p c).Φ (Fin.last (cfgs p).N) ⊢ Pipeline.ΦA (cfgs p).spec c) : Region m outs p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ Lno lv0 p fun c => (pdats_plain m outs p c).1
  pre c := iprop(StableHlo.held (c : Thread nD τ) (Pipeline.ucRefs τ sig) (entV c) ∗ Rst c)
  post c := iprop(StableHlo.held (c : Thread nD τ) (Pipeline.ucRefs τ sig) (extV c) ∗ Rst c)
  X c := iprop(∃ r, prngReg c r)
  Y c := iprop(∃ r, prngReg c r)
  Z c := Pipeline.unscopedRest (Ix := Unit) (Name := ℕ) (U := UR sig nD τ) (Lvl := ℕ) (cfgs p).spec c fun b => entV c b
  hentry c := by
    rw [Pipeline.ownSems0_none]
    have hsplit := Pipeline.arrays_of_unscopedBufs (p := p) (pcfgs (F := F)) Gen.adm (pdats m outs) launch.win launch.arr_whole c
      ((pdats m outs p c).share_full (pdats_plain m outs p c).2.1) (fun b => entV c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [(pdats_plain m outs p c).1, (pdats_plain m outs p c).2.2]
      icases HO with ⟨%W, HO⟩; iexists W; isplitr; · ipureintro; exact fun _ _ => Or.inl trivial
      iexact HO
    isplitl [Hp]; · iexact Hp
    iexact Hrest
  hin c := (PhiA_in _ c _).trans (hin c)
  hout c := by rw [Pipeline.ownSems0_none]; exact (hout c).trans (PhiA_out _ c)
  hexit c := by
    have hF : ∀ w, (pdats m outs p c).arrAt w (cfgs p).N = extV c (Pipeline.arrRef (cfgs p).spec w) := fun w => by
      rw [hext]
      by_cases h : w = o
      · subst h; rw [Function.update_self, hx]
      · rw [Function.update_of_ne (StableHlo.devRef_ne_of_ne (launch.win.arr_inj.ne h)), ← hA, Dat.arrAt_in _ w (hio w h)]
    have hrest : ∀ b, b ∉ Finset.univ.image (Pipeline.arrRef (cfgs p).spec) → extV c b = entV c b := fun b hb => by
      rw [hext, Function.update_of_ne (StableHlo.devRef_ne_of_ne fun h => hb (Finset.mem_image.mpr ⟨o, Finset.mem_univ _, h.symm⟩))]
    have hjoin := Pipeline.unscopedBufs_of_arrays (p := p) (pcfgs (F := F)) Gen.adm (Ix := Unit) (Name := ℕ) (U := UR sig nD τ) (Lvl := ℕ)
      launch.win launch.arr_whole c (pdats m outs) ((pdats m outs p c).share_full (pdats_plain m outs p c).2.1)
      (fun b => entV c b) (fun b => extV c b) ((pdats m outs p c).arrAt · (cfgs p).N) hF hrest
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [(pdats_plain m outs p c).1]
    icases HO with ⟨%W, -, HO⟩; iexists W; iexact HO

variable (hO : OutsOK m outs)

set_option backward.isDefEq.respectTransparency.types false in
def reg0 : Region m outs 0 :=
  segOf m outs 0 launch0 (Gen.V1 m) (Gen.V2 m outs) (body_obligation0 fun c b => Gen.V1 m c b) (fun _ _ => rfl) (2 : Fin 3) (by decide)
    hO.o2 (fun _ => rfl) (fun _ => .rfl) (fun _ => .rfl)

set_option backward.isDefEq.respectTransparency.types false in
def reg1 : Region m outs 1 :=
  segOf m outs 1 launch1 (Gen.V3 m outs) (Gen.V4 m outs) (body_obligation1 fun c b => Gen.V3 m outs c b) (fun _ _ => rfl) (2 : Fin 3) (by decide)
    hO.o4 (fun _ => rfl) (fun _ => .rfl) (fun _ => .rfl)

set_option backward.isDefEq.respectTransparency.types false in
def reg2 : Region m outs 2 :=
  segOf m outs 2 launch2 (Gen.V4 m outs) (Gen.V5 m outs) (body_obligation2 fun c b => Gen.V4 m outs c b) (fun _ _ => rfl) (2 : Fin 3) (by decide)
    hO.o5 (fun _ => rfl) (fun _ => .rfl) (fun _ => .rfl)

set_option backward.isDefEq.respectTransparency.types false in
def reg3 : Region m outs 3 :=
  segOf m outs 3 launch3 (Gen.V6 m outs) (Gen.V7 m outs) (body_obligation3 fun c b => Gen.V6 m outs c b) (fun _ _ => rfl) (2 : Fin 3) (by decide)
    hO.o7 (fun _ => rfl) (fun _ => .rfl) (fun _ => .rfl)

set_option backward.isDefEq.respectTransparency.types false in
def reg4 : Region m outs 4 :=
  segOf m outs 4 launch4 (Gen.V7 m outs) (Gen.V8 m outs) (body_obligation4 fun c b => Gen.V7 m outs c b) (fun _ _ => rfl) (2 : Fin 3) (by decide)
    hO.o8 (fun _ => rfl) (fun _ => .rfl) (fun _ => .rfl)

set_option backward.isDefEq.respectTransparency.types false in
def reg5 : Region m outs 5 :=
  segOf m outs 5 launch5 (Gen.V9 m outs) (Gen.V10 m outs) (body_obligation5 fun c b => Gen.V9 m outs c b) (fun _ _ => rfl) (2 : Fin 3) (by decide)
    hO.o10 (fun _ => rfl) (fun _ => .rfl) (fun _ => .rfl)

set_option backward.isDefEq.respectTransparency.types false in
def reg6 : Region m outs 6 :=
  segOf m outs 6 launch6 (Gen.V11 m outs) (Gen.V12 m outs) (body_obligation6 fun c b => Gen.V11 m outs c b) (fun _ _ => rfl) (4 : Fin 5) (by decide)
    hO.o12 (fun _ => rfl) (hin6 _) (hout6 _)

end Cert.Kernel.Hand

end
-- ==== Proof.FrameBits.Run.lean ====
import proofs.«407712_j30391188586951_1_alg».proof.Proof.FrameBits.Segs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

theorem Rst_owes (c : Dev nD) :
    Rst (F := F) c ⊢ (iprop(∃ W, owes (c : Thread nD τ) (0 : CellTallies nD τ sig Unit) W) : sProp 𝕄) := by
  iintro ⟨-, H⟩; iexact H

-- if `outs` are what the regions leave, every fair execution ends with each buffer of each core at the last valuation
set_option backward.isDefEq.respectTransparency.types false in
theorem run_cond (outs : Gen.Outs (F := F)) (hO : OutsOK m outs) :
    θ_run defs (onTc (τ := τ) (main (F := F))) ⟨m, fun _ => 0, ρ⟩
      (fun r => ∀ c : Dev nD, ∀ b ∈ Pipeline.ucRefs τ sig, r.2.mem ((c : Thread nD τ).1, b) = Gen.V12 m outs c b) := by
  refine Pipeline.θ_run_regions_kit_dev (pcfgs (F := F)) Gen.adm (pdats m outs) () cellOf_inj emb₁ defs₀ Variants.none Lno lv0 m ρ main
    (Gen.segs m outs Variants.none Lno lv0 (fun _ c => Rst c) () (pdats m outs) (reg0 m outs hO) (reg1 m outs hO) (reg2 m outs hO) (reg3 m outs hO) (reg4 m outs hO) (reg5 m outs hO) (reg6 m outs hO))
    (fun c Q => by
      rewrite [main_chain c, Pipeline.Seg.run_eq_chain,
        show (Gen.segs m outs Variants.none Lno lv0 (fun _ c => Rst c) () (pdats m outs) (reg0 m outs hO) (reg1 m outs hO) (reg2 m outs hO) (reg3 m outs hO) (reg4 m outs hO) (reg5 m outs hO) (reg6 m outs hO) c).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V12 m outs c))
    (hch := fun c => ⟨.rfl, .rfl, .rfl, .rfl, .rfl, .rfl, .rfl, .rfl, .rfl, .rfl, .rfl, .rfl, sep_mono .rfl (Rst_owes c)⟩)
    (hinit := by

      refine Pipeline.initEach Lno lv0 fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = Gen.V12 m outs c b)
    (hfin := fun c s' => by

      iintro ⟨Hh, HSI⟩
      unfold StableHlo.held
      imodintro
      iapply (pointsTo_read_all (Pipeline.ucRefs τ sig) (fun b => ((c : Thread nD τ).1, b)) (Gen.V12 m outs c) s')
      isplitl [Hh] <;> iassumption)
    (hQ := fun s h c => h c)

-- at the contents the regions do leave: the result buffer ends at region 6's array and every argument as launched
theorem run_value : θ_run defs (onTc (τ := τ) (main (F := F))) ⟨m, fun _ => 0, ρ⟩ (fun r => ∀ c : Dev nD,
      r.2.mem ((c.tc : Thread nD τ).loc main_v77) = outsF m 12 main_v77 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_ucRefs main_v77 (by decide))).trans
        (by show Function.update (Gen.V11 m (outsF m) c) main_v77 (outsF m 12 main_v77 c) main_v77 = _; rw [Function.update_self]),
      (h c _ (mem_ucRefs main_arg0 (by decide))).trans (Gen.V12_main_arg0 m (outsF m) c),
      (h c _ (mem_ucRefs main_arg1 (by decide))).trans (Gen.V12_main_arg1 m (outsF m) c),
      (h c _ (mem_ucRefs main_arg2 (by decide))).trans (Gen.V12_main_arg2 m (outsF m) c),
      (h c _ (mem_ucRefs main_arg3 (by decide))).trans (Gen.V12_main_arg3 m (outsF m) c),
      (h c _ (mem_ucRefs main_arg4 (by decide))).trans (Gen.V12_main_arg4 m (outsF m) c),
      (h c _ (mem_ucRefs main_arg5 (by decide))).trans (Gen.V12_main_arg5 m (outsF m) c),
      (h c _ (mem_ucRefs main_arg6 (by decide))).trans (Gen.V12_main_arg6 m (outsF m) c),
      (h c _ (mem_ucRefs main_arg7 (by decide))).trans (Gen.V12_main_arg7 m (outsF m) c),
      (h c _ (mem_ucRefs main_arg8 (by decide))).trans (Gen.V12_main_arg8 m (outsF m) c),
      (h c _ (mem_ucRefs main_arg9 (by decide))).trans (Gen.V12_main_arg9 m (outsF m) c),
      (h c _ (mem_ucRefs main_arg10 (by decide))).trans (Gen.V12_main_arg10 m (outsF m) c)⟩)
    (run_cond m ρ (outsF m) (outsF_ok m))

end Cert.Kernel.Hand

end
-- ==== Proof.Value.RefRead.lean ====
import proofs.«407712_j30391188586951_1_alg».proof.Proof.Gen.ReferenceIdeal.Run
import proofs.«407712_j30391188586951_1_alg».proof.Proof.Gen.ReferenceIdeal.Read
-- ==== Proof.Value.Agg.lean ====
import proofs.«407712_j30391188586951_1_alg».proof.Proof.Value.RefRead

noncomputable section

namespace Cert.ReferenceIdeal.Agg

open Cert.ReferenceIdeal Idealize.ShloMosaic

variable {F : FTy → Type} [FloatOps F]

def agg (x1 : (⟨S2x1600000, .i32⟩ : BufTy).Contents (Elt F)) (hw : (⟨S100000x128, .f32⟩ : BufTy).Contents (Elt F)) :
    (⟨S100000x128, .f32⟩ : BufTy).Contents (Elt F) :=
  Host.scatterAdd scatter_S100000x128_S1700000x1_S1700000x128_1_0_0_1 (Read.val_main_v38 (F := F)) (Read.val_main_v39 (F := F) x1)
    (mulf (Host.gather gather_S100000x128_S1700000x1_S1700000x128_1_0_n_n_0_1_1128 hw (Read.val_main_v33 (F := F) x1))
      (Read.val_main_v36 (F := F) x1))

end Cert.ReferenceIdeal.Agg

end
-- ==== Proof.LibLayout.lean ====
import Idealize.ShloMosaic.Lib.ValueIdx
import Idealize.ShloMosaic.Lib.Pipeline.Value

noncomputable section

namespace Cert.Lib.Layout

open Idealize.ShloMosaic Idealize.ShloMosaic.ValueIdx

theorem rowCast_apply {α : Type} {B : Nat} (v : (⟨1, ![B]⟩ : Shape).Idx → α)
    (h1 : (⟨1, ![B]⟩ : Shape).ShapeCasts ⟨2, ![1, B]⟩) (z : Fin 1) (q : Fin B) :
    shapeCast ⟨2, ![1, B]⟩ v h1 (ix2 z q) = v (ix1 q) := by
  refine (shapeCast_addUnit_apply (n := 1) ![B] v h1 (ix2 z q)).trans (congrArg v ?_)
  funext a
  match a with
  | ⟨0, _⟩ => rfl

end Cert.Lib.Layout

end
-- ==== Proof.Value.HostK.lean ====
import proofs.«407712_j30391188586951_1_alg».proof.Proof.Gen.KernelIdeal.Regions
import proofs.«407712_j30391188586951_1_alg».proof.Proof.Value.Agg
import proofs.«407712_j30391188586951_1_alg».proof.Proof.LibLayout
import Idealize.ShloMosaic.Lib.StableHlo.Run
import Idealize.ShloMosaic.Lib.Pipeline.Value
import Idealize.ShloMosaic.Lib.ValueIdx

noncomputable section

namespace Cert.KernelIdeal.HostK

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

-- the first host stretch computes the reference's own stages of the edge index
set_option maxHeartbeats 2000000 in
theorem src_of (W : Valuation τ sig (Elt F)) :
    StableHlo.after hostOps0 W (Proc.devRef .tc main_v3) = Cert.ReferenceIdeal.Read.val_main_v3 (F := F) (W (Proc.devRef .tc main_arg1)) := by
  after_results_simp
  rfl

set_option maxHeartbeats 2000000 in
theorem dst_of (W : Valuation τ sig (Elt F)) :
    StableHlo.after hostOps0 W (Proc.devRef .tc main_v6) = Cert.ReferenceIdeal.Read.val_main_v6 (F := F) (W (Proc.devRef .tc main_arg1)) := by
  after_results_simp
  rfl

set_option maxHeartbeats 2000000 in
theorem norm_of (W : Valuation τ sig (Elt F)) :
    StableHlo.after hostOps0 W (Proc.devRef .tc main_v26) = Cert.ReferenceIdeal.Read.val_main_v26 (F := F) (W (Proc.devRef .tc main_arg1)) := by
  after_results_simp
  rfl

-- each later stretch is the one message-passing step of the edge index and of the product the region before it left
set_option maxHeartbeats 2000000 in
theorem agg_of1 (W : Valuation τ sig (Elt F)) (x1 : (⟨Cert.ReferenceIdeal.S2x1600000, .i32⟩ : BufTy).Contents (Elt F))
    (h3 : W (Proc.devRef .tc main_v3) = Cert.ReferenceIdeal.Read.val_main_v3 (F := F) x1)
    (h6 : W (Proc.devRef .tc main_v6) = Cert.ReferenceIdeal.Read.val_main_v6 (F := F) x1)
    (h26 : W (Proc.devRef .tc main_v26) = Cert.ReferenceIdeal.Read.val_main_v26 (F := F) x1) :
    StableHlo.after hostOps1 W (Proc.devRef .tc main_v40) = Cert.ReferenceIdeal.Agg.agg (F := F) x1 (W (Proc.devRef .tc main_v27)) := by
  after_results_simp
  rw [h3, h6, h26]
  unfold Cert.ReferenceIdeal.Agg.agg
  rfl

set_option maxHeartbeats 2000000 in
theorem agg_of3 (W : Valuation τ sig (Elt F)) (x1 : (⟨Cert.ReferenceIdeal.S2x1600000, .i32⟩ : BufTy).Contents (Elt F))
    (h3 : W (Proc.devRef .tc main_v3) = Cert.ReferenceIdeal.Read.val_main_v3 (F := F) x1)
    (h6 : W (Proc.devRef .tc main_v6) = Cert.ReferenceIdeal.Read.val_main_v6 (F := F) x1)
    (h26 : W (Proc.devRef .tc main_v26) = Cert.ReferenceIdeal.Read.val_main_v26 (F := F) x1) :
    StableHlo.after hostOps3 W (Proc.devRef .tc main_v56) = Cert.ReferenceIdeal.Agg.agg (F := F) x1 (W (Proc.devRef .tc main_v43)) := by
  after_results_simp
  rw [h3, h6, h26]
  unfold Cert.ReferenceIdeal.Agg.agg
  rfl

set_option maxHeartbeats 2000000 in
theorem agg_of5 (W : Valuation τ sig (Elt F)) (x1 : (⟨Cert.ReferenceIdeal.S2x1600000, .i32⟩ : BufTy).Contents (Elt F))
    (h3 : W (Proc.devRef .tc main_v3) = Cert.ReferenceIdeal.Read.val_main_v3 (F := F) x1)
    (h6 : W (Proc.devRef .tc main_v6) = Cert.ReferenceIdeal.Read.val_main_v6 (F := F) x1)
    (h26 : W (Proc.devRef .tc main_v26) = Cert.ReferenceIdeal.Read.val_main_v26 (F := F) x1) :
    StableHlo.after hostOps5 W (Proc.devRef .tc main_v72) = Cert.ReferenceIdeal.Agg.agg (F := F) x1 (W (Proc.devRef .tc main_v59)) := by
  after_results_simp
  rw [h3, h6, h26]
  unfold Cert.ReferenceIdeal.Agg.agg
  rfl

theorem bias_of1 (W : Valuation τ sig (Elt F)) (q : Fin 128) :
    StableHlo.after hostOps1 W (Proc.devRef .tc main_v41) (ix2 (0 : Fin 1) q) = W (Proc.devRef .tc main_arg4) (ix1 q) := by
  after_results_simp
  exact Cert.Lib.Layout.rowCast_apply _ _ 0 q

theorem bias_of3 (W : Valuation τ sig (Elt F)) (q : Fin 128) :
    StableHlo.after hostOps3 W (Proc.devRef .tc main_v57) (ix2 (0 : Fin 1) q) = W (Proc.devRef .tc main_arg6) (ix1 q) := by
  after_results_simp
  exact Cert.Lib.Layout.rowCast_apply _ _ 0 q

theorem bias_of5 (W : Valuation τ sig (Elt F)) (q : Fin 128) :
    StableHlo.after hostOps5 W (Proc.devRef .tc main_v73) (ix2 (0 : Fin 1) q) = W (Proc.devRef .tc main_arg8) (ix1 q) := by
  after_results_simp
  exact Cert.Lib.Layout.rowCast_apply _ _ 0 q

theorem linb_of (W : Valuation τ sig (Elt F)) (q : Fin 128) :
    StableHlo.after hostOps6 W (Proc.devRef .tc main_v76) (ix2 (0 : Fin 1) q) = W (Proc.devRef .tc main_arg10) (ix1 q) := by
  after_results_simp
  exact Cert.Lib.Layout.rowCast_apply _ _ 0 q

theorem ids_of (W : Valuation τ sig (Elt F)) (e : Fin 100000) :
    StableHlo.after hostOps6 W (Proc.devRef .tc main_v75) (ix2 e (0 : Fin 1)) = W (Proc.devRef .tc main_arg2) (ix1 e) := by
  after_results_simp
  refine shapeCast_apply _ _ _ (ix1 e) ?_
  show ((⟨1, ![100000]⟩ : Shape).rowMajor (ix1 e)).val = ((⟨2, ![100000, 1]⟩ : Shape).rowMajor (ix2 e (0 : Fin 1))).val
  rw [Shape.rowMajor_val_one, Shape.rowMajor_val_two]
  show e.val = e.val * 1 + 0
  omega

variable (m : (ℓ : Loc nD τ sig) → Buf (Elt F) ℓ) (outs : Gen.Outs (F := F))

abbrev edges (c : Dev nD) : (⟨Cert.ReferenceIdeal.S2x1600000, .i32⟩ : BufTy).Contents (Elt F) := m ((c : Thread nD τ).loc main_arg1)

theorem V1_src (c : Dev nD) : Gen.V1 m c main_v3 = Cert.ReferenceIdeal.Read.val_main_v3 (F := F) (edges m c) := src_of (Gen.V0 m c)
theorem V1_dst (c : Dev nD) : Gen.V1 m c main_v6 = Cert.ReferenceIdeal.Read.val_main_v6 (F := F) (edges m c) := dst_of (Gen.V0 m c)
theorem V1_norm (c : Dev nD) : Gen.V1 m c main_v26 = Cert.ReferenceIdeal.Read.val_main_v26 (F := F) (edges m c) := norm_of (Gen.V0 m c)

-- a buffer that no later item writes is read back as the first stretch left it
theorem V2_keep (c : Dev nD) (r : Ref sig .tc) (h : r ∉ ([main_v27] : List (Ref sig .tc))) : Gen.V2 m outs c r = Gen.V1 m c r :=
  Gen.V2_of m outs c r h

theorem V5_keep (c : Dev nD) (r : Ref sig .tc) (h5 : r ∉ ([main_v43] : List (Ref sig .tc))) (h4 : r ∉ ([main_v42] : List (Ref sig .tc)))
    (h3 : r ∉ hostOps1_W) (h2 : r ∉ ([main_v27] : List (Ref sig .tc))) : Gen.V5 m outs c r = Gen.V1 m c r :=
  (Gen.V5_of m outs c r h5).trans <| (Gen.V4_of m outs c r h4).trans <| (Gen.V3_of m outs c r h3).trans (Gen.V2_of m outs c r h2)

theorem V8_keep (c : Dev nD) (r : Ref sig .tc) (h8 : r ∉ ([main_v59] : List (Ref sig .tc))) (h7 : r ∉ ([main_v58] : List (Ref sig .tc)))
    (h6 : r ∉ hostOps3_W) (h5 : r ∉ ([main_v43] : List (Ref sig .tc))) (h4 : r ∉ ([main_v42] : List (Ref sig .tc)))
    (h3 : r ∉ hostOps1_W) (h2 : r ∉ ([main_v27] : List (Ref sig .tc))) : Gen.V8 m outs c r = Gen.V1 m c r :=
  (Gen.V8_of m outs c r h8).trans <| (Gen.V7_of m outs c r h7).trans <| (Gen.V6_of m outs c r h6).trans (V5_keep m outs c r h5 h4 h3 h2)

theorem V10_keep (c : Dev nD) (r : Ref sig .tc) (h10 : r ∉ ([main_v74] : List (Ref sig .tc))) (h9 : r ∉ hostOps5_W)
    (h8 : r ∉ ([main_v59] : List (Ref sig .tc))) (h7 : r ∉ ([main_v58] : List (Ref sig .tc)))
    (h6 : r ∉ hostOps3_W) (h5 : r ∉ ([main_v43] : List (Ref sig .tc))) (h4 : r ∉ ([main_v42] : List (Ref sig .tc)))
    (h3 : r ∉ hostOps1_W) (h2 : r ∉ ([main_v27] : List (Ref sig .tc))) : Gen.V10 m outs c r = Gen.V1 m c r :=
  (Gen.V10_of m outs c r h10).trans <| (Gen.V9_of m outs c r h9).trans (V8_keep m outs c r h8 h7 h6 h5 h4 h3 h2)

theorem V1_arg (c : Dev nD) (r : Ref sig .tc) (h : r ∉ hostOps0_W) : Gen.V1 m c r = m ((c : Thread nD τ).loc r) :=
  (Gen.V1_of m c r h).trans rfl

theorem in0_x (c : Dev nD) : Gen.V1 m c main_arg0 = m ((c : Thread nD τ).loc main_arg0) := V1_arg m c main_arg0 (by decide)
theorem in0_w (c : Dev nD) : Gen.V1 m c main_arg3 = m ((c : Thread nD τ).loc main_arg3) := V1_arg m c main_arg3 (by decide)

theorem in1_agg (c : Dev nD) : Gen.V3 m outs c main_v40 = Cert.ReferenceIdeal.Agg.agg (F := F) (edges m c) (outs 2 main_v27 c) := by
  have h := agg_of1 (Gen.V2 m outs c) (edges m c)
    ((V2_keep m outs c main_v3 (by decide)).trans (V1_src m c))
    ((V2_keep m outs c main_v6 (by decide)).trans (V1_dst m c))
    ((V2_keep m outs c main_v26 (by decide)).trans (V1_norm m c))
  rw [show Gen.V2 m outs c (Proc.devRef .tc main_v27) = outs 2 main_v27 c from Function.update_self _ _ _] at h
  exact h
theorem in1_bias (c : Dev nD) (q : Fin 128) : Gen.V3 m outs c main_v41 (ix2 (0 : Fin 1) q) = m ((c : Thread nD τ).loc main_arg4) (ix1 q) :=
  (bias_of1 (Gen.V2 m outs c) q).trans (congrFun ((V2_keep m outs c main_arg4 (by decide)).trans (V1_arg m c main_arg4 (by decide))) (ix1 q))

theorem in2_h (c : Dev nD) : Gen.V4 m outs c main_v42 = outs 4 main_v42 c := Function.update_self _ _ _
theorem in2_w (c : Dev nD) : Gen.V4 m outs c main_arg5 = m ((c : Thread nD τ).loc main_arg5) :=
  (Gen.V4_of m outs c main_arg5 (by decide)).trans <| (Gen.V3_of m outs c main_arg5 (by decide)).trans <|
    (Gen.V2_of m outs c main_arg5 (by decide)).trans (V1_arg m c main_arg5 (by decide))

theorem in3_agg (c : Dev nD) : Gen.V6 m outs c main_v56 = Cert.ReferenceIdeal.Agg.agg (F := F) (edges m c) (outs 5 main_v43 c) := by
  have h := agg_of3 (Gen.V5 m outs c) (edges m c)
    ((V5_keep m outs c main_v3 (by decide) (by decide) (by decide) (by decide)).trans (V1_src m c))
    ((V5_keep m outs c main_v6 (by decide) (by decide) (by decide) (by decide)).trans (V1_dst m c))
    ((V5_keep m outs c main_v26 (by decide) (by decide) (by decide) (by decide)).trans (V1_norm m c))
  rw [show Gen.V5 m outs c (Proc.devRef .tc main_v43) = outs 5 main_v43 c from Function.update_self _ _ _] at h
  exact h
theorem in3_bias (c : Dev nD) (q : Fin 128) : Gen.V6 m outs c main_v57 (ix2 (0 : Fin 1) q) = m ((c : Thread nD τ).loc main_arg6) (ix1 q) :=
  (bias_of3 (Gen.V5 m outs c) q).trans (congrFun ((V5_keep m outs c main_arg6 (by decide) (by decide) (by decide) (by decide)).trans (V1_arg m c main_arg6 (by decide))) (ix1 q))

theorem in4_h (c : Dev nD) : Gen.V7 m outs c main_v58 = outs 7 main_v58 c := Function.update_self _ _ _
theorem in4_w (c : Dev nD) : Gen.V7 m outs c main_arg7 = m ((c : Thread nD τ).loc main_arg7) :=
  (Gen.V7_of m outs c main_arg7 (by decide)).trans <| (Gen.V6_of m outs c main_arg7 (by decide)).trans <|
    (V5_keep m outs c main_arg7 (by decide) (by decide) (by decide) (by decide)).trans (V1_arg m c main_arg7 (by decide))

theorem in5_agg (c : Dev nD) : Gen.V9 m outs c main_v72 = Cert.ReferenceIdeal.Agg.agg (F := F) (edges m c) (outs 8 main_v59 c) := by
  have h := agg_of5 (Gen.V8 m outs c) (edges m c)
    ((V8_keep m outs c main_v3 (by decide) (by decide) (by decide) (by decide) (by decide) (by decide) (by decide)).trans (V1_src m c))
    ((V8_keep m outs c main_v6 (by decide) (by decide) (by decide) (by decide) (by decide) (by decide) (by decide)).trans (V1_dst m c))
    ((V8_keep m outs c main_v26 (by decide) (by decide) (by decide) (by decide) (by decide) (by decide) (by decide)).trans (V1_norm m c))
  rw [show Gen.V8 m outs c (Proc.devRef .tc main_v59) = outs 8 main_v59 c from Function.update_self _ _ _] at h
  exact h
theorem in5_bias (c : Dev nD) (q : Fin 128) : Gen.V9 m outs c main_v73 (ix2 (0 : Fin 1) q) = m ((c : Thread nD τ).loc main_arg8) (ix1 q) :=
  (bias_of5 (Gen.V8 m outs c) q).trans (congrFun ((V8_keep m outs c main_arg8 (by decide) (by decide) (by decide) (by decide) (by decide) (by decide) (by decide)).trans (V1_arg m c main_arg8 (by decide))) (ix1 q))

theorem in6_h (c : Dev nD) : Gen.V11 m outs c main_v74 = outs 10 main_v74 c :=
  (Gen.V11_of m outs c main_v74 (by decide)).trans (Function.update_self _ _ _)
theorem in6_ids (c : Dev nD) (e : Fin 100000) : Gen.V11 m outs c main_v75 (ix2 e (0 : Fin 1)) = m ((c : Thread nD τ).loc main_arg2) (ix1 e) :=
  (ids_of (Gen.V10 m outs c) e).trans (congrFun ((V10_keep m outs c main_arg2 (by decide) (by decide) (by decide) (by decide) (by decide) (by decide) (by decide) (by decide) (by decide)).trans (V1_arg m c main_arg2 (by decide))) (ix1 e))
theorem in6_w (c : Dev nD) : Gen.V11 m outs c main_arg9 = m ((c : Thread nD τ).loc main_arg9) :=
  (Gen.V11_of m outs c main_arg9 (by decide)).trans <| (V10_keep m outs c main_arg9 (by decide) (by decide) (by decide) (by decide) (by decide) (by decide) (by decide) (by decide) (by decide)).trans (V1_arg m c main_arg9 (by decide))
theorem in6_bias (c : Dev nD) (q : Fin 128) : Gen.V11 m outs c main_v76 (ix2 (0 : Fin 1) q) = m ((c : Thread nD τ).loc main_arg10) (ix1 q) :=
  (linb_of (Gen.V10 m outs c) q).trans (congrFun ((V10_keep m outs c main_arg10 (by decide) (by decide) (by decide) (by decide) (by decide) (by decide) (by decide) (by decide) (by decide)).trans (V1_arg m c main_arg10 (by decide))) (ix1 q))

end Cert.KernelIdeal.HostK

end
-- ==== Proof.LibMatmul.lean ====
import Idealize.ShloMosaic.Lib.ValueIdx
import Idealize.ShloMosaic.PureOps.Ideal.Laws

noncomputable section

namespace Cert.Lib.Matmul

open Idealize.ShloMosaic Idealize.ShloMosaic.ValueIdx

variable {A K C : Nat}

theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

end Cert.Lib.Matmul

end
-- ==== Proof.Value.LayerPay.lean ====
import proofs.«407712_j30391188586951_1_alg».proof.Proof.Gen.KernelIdeal.Skeleton
import proofs.«407712_j30391188586951_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.LayerPay

open Cert.KernelIdeal Cert.KernelIdeal.Gen Idealize.ShloMosaic Idealize.ShloMosaic.ValueIdx

-- a block product into a zero accumulator: entry (p, q) is the sum over the shared coordinate
theorem mmpay0 (x : Vec Ideal S5000x128 .f32) (w : Vec Ideal S128x128 .f32) (p : Fin 5000) (q : Fin 128) :
    k0_pay1 (F := Ideal) x w (ix2 p q) = ∑ k : Fin 128, x (ix2 p k) * w (ix2 k q) :=
  Cert.Lib.Matmul.matmul_zero_apply (A := 5000) (K := 128) (C := 128) none _ _ p q

-- the later products first cast the block to its own shape, which changes nothing
theorem mmpay2 (x : Vec Ideal S5000x128 .f32) (w : Vec Ideal S128x128 .f32) (p : Fin 5000) (q : Fin 128) :
    k2_pay1 (F := Ideal) x w (ix2 p q) = ∑ k : Fin 128, x (ix2 p k) * w (ix2 k q) :=
  (mmpay0 (shapeCast S5000x128 x shapeCasts_S5000x128_S5000x128) w p q).trans (by rw [shapeCast_self])

theorem mmpay4 (x : Vec Ideal S5000x128 .f32) (w : Vec Ideal S128x128 .f32) (p : Fin 5000) (q : Fin 128) :
    k4_pay1 (F := Ideal) x w (ix2 p q) = ∑ k : Fin 128, x (ix2 p k) * w (ix2 k q) :=
  mmpay2 x w p q

-- the bias row, broadcast over the rows of the block, added entry by entry
theorem biaspay5 (a : Vec Ideal S5000x128 .f32) (b : Vec Ideal S1x128 .f32) (p : Fin 5000) (q : Fin 128) :
    k5_pay1 (F := Ideal) a b (ix2 p q) = a (ix2 p q) + b (ix2 0 q) := by
  show (shapeCast S5000x128 a shapeCasts_S5000x128_S5000x128) (ix2 p q)
      + broadcastTo S5000x128 (shapeCast S1x128 b shapeCasts_S1x128_S1x128) broadcasts_S1x128_S5000x128 (ix2 p q) = _
  rw [shapeCast_self, shapeCast_self]
  exact congrArg _ (broadcastTo_1b_ab_apply (a := 5000) (b := 128) b broadcasts_S1x128_S5000x128 p q)

-- the same, then the maximum with zero
theorem biaspay1 (a : Vec Ideal S5000x128 .f32) (b : Vec Ideal S1x128 .f32) (p : Fin 5000) (q : Fin 128) :
    k1_pay1 (F := Ideal) a b (ix2 p q) = max (a (ix2 p q) + b (ix2 0 q)) 0 := by
  show max (k5_pay1 (F := Ideal) a b (ix2 p q)) (Ideal.ofBits .f32 0x00000000#32) = _
  rw [biaspay5, Ideal.ofBits_zero_f32]

theorem biaspay3 (a : Vec Ideal S5000x128 .f32) (b : Vec Ideal S1x128 .f32) (p : Fin 5000) (q : Fin 128) :
    k3_pay1 (F := Ideal) a b (ix2 p q) = max (a (ix2 p q) + b (ix2 0 q)) 0 :=
  biaspay1 a b p q

end Cert.KernelIdeal.LayerPay

end
-- ==== Proof.Value.Spec.lean ====
import Idealize.ShloMosaic.Lib.ValueIdx
import Idealize.ShloMosaic.PureOps.Ideal

noncomputable section

open scoped BigOperators

namespace Cert.Spec

open Idealize.ShloMosaic Idealize.ShloMosaic.ValueIdx

abbrev SNode : Shape := ⟨2, ![100000, 128]⟩
abbrev SWt : Shape := ⟨2, ![128, 128]⟩
abbrev SBias : Shape := ⟨1, ![128]⟩
abbrev SGraph : Shape := ⟨2, ![512, 128]⟩
abbrev SBatch : Shape := ⟨1, ![100000]⟩

def mmAt (x : SNode.Idx → EReal) (w : SWt.Idx → EReal) (p : Fin 100000) (q : Fin 128) : EReal :=
  ∑ k : Fin 128, x (ix2 p k) * w (ix2 k q)

def mm (x : SNode.Idx → EReal) (w : SWt.Idx → EReal) : SNode.Idx → EReal :=
  fun i => mmAt x w (i 0) (i 1)

theorem mm_apply (x : SNode.Idx → EReal) (w : SWt.Idx → EReal) (p : Fin 100000) (q : Fin 128) :
    mm x w (ix2 p q) = mmAt x w p q := rfl

def biasRelu (a : SNode.Idx → EReal) (b : SBias.Idx → EReal) : SNode.Idx → EReal :=
  fun i => max (a i + b (ix1 (i 1))) 0

theorem biasRelu_apply (a : SNode.Idx → EReal) (b : SBias.Idx → EReal) (p : Fin 100000) (q : Fin 128) :
    biasRelu a b (ix2 p q) = max (a (ix2 p q) + b (ix1 q)) 0 := rfl

def biasAdd (a : SNode.Idx → EReal) (b : SBias.Idx → EReal) : SNode.Idx → EReal :=
  fun i => a i + b (ix1 (i 1))

theorem biasAdd_apply (a : SNode.Idx → EReal) (b : SBias.Idx → EReal) (p : Fin 100000) (q : Fin 128) :
    biasAdd a b (ix2 p q) = a (ix2 p q) + b (ix1 q) := rfl

def poolSumAt (h : SNode.Idx → EReal) (batch : SBatch.Idx → BitVec 32) (g : Fin 512) (f : Fin 128) : EReal :=
  ∑ e : Fin 100000, if (batch (ix1 e)).toInt = (g.val : Int) then h (ix2 e f) else 0

def poolCntAt (batch : SBatch.Idx → BitVec 32) (g : Fin 512) : EReal :=
  ∑ e : Fin 100000, if (batch (ix1 e)).toInt = (g.val : Int) then (1 : EReal) else 0

def pooledAt (h : SNode.Idx → EReal) (batch : SBatch.Idx → BitVec 32) (g : Fin 512) (f : Fin 128) : EReal :=
  Ideal.div (poolSumAt h batch g f) (max (poolCntAt batch g) 1)

def headAt (h : SNode.Idx → EReal) (batch : SBatch.Idx → BitVec 32) (lw : SWt.Idx → EReal) (lb : SBias.Idx → EReal)
    (g : Fin 512) (f : Fin 128) : EReal :=
  (∑ k : Fin 128, pooledAt h batch g k * lw (ix2 k f)) + lb (ix1 f)

def head (h : SNode.Idx → EReal) (batch : SBatch.Idx → BitVec 32) (lw : SWt.Idx → EReal) (lb : SBias.Idx → EReal) :
    SGraph.Idx → EReal :=
  fun i => headAt h batch lw lb (i 0) (i 1)

theorem head_apply (h : SNode.Idx → EReal) (batch : SBatch.Idx → BitVec 32) (lw : SWt.Idx → EReal)
    (lb : SBias.Idx → EReal) (g : Fin 512) (f : Fin 128) :
    head h batch lw lb (ix2 g f) = headAt h batch lw lb g f := rfl

end Cert.Spec

end
-- ==== Proof.Value.LayerCover.lean ====
import proofs.«407712_j30391188586951_1_alg».proof.Proof.Value.Spec
import Idealize.ShloMosaic.Lib.Pipeline.Value

noncomputable section

open scoped BigOperators

namespace Cert.KernelIdeal.LayerArr

open Idealize.ShloMosaic Idealize.ShloMosaic.ValueIdx Cert.Spec

abbrev SBlk : Shape := ⟨2, ![5000, 128]⟩
abbrev SRow : Shape := ⟨2, ![1, 128]⟩

-- a block at block index zero sits in its array at its own coordinates
theorem emb_id {d i1 : Fin 2 → ℕ} {e : (⟨2, d⟩ : Shape).Idx → (⟨2, d⟩ : Shape).Idx} (hi : ∀ a, i1 a = 0)
    (h : ∀ j a, (e j a : ℕ) = i1 a * d a + j a) (j : (⟨2, d⟩ : Shape).Idx) : e j = j :=
  funext fun a => Fin.ext (by rw [h, hi, Nat.zero_mul, Nat.zero_add])

section Block

variable {i0 i1 i2 : Fin 2 → ℕ} {n : ℕ} (hi : ∀ a, i0 a = ![n, 0] a ∧ i1 a = 0 ∧ i2 a = ![n, 0] a)
  {e0 e2 : SBlk.Idx → SNode.Idx}
  (h0 : ∀ j a, (e0 j a : ℕ) = i0 a * SBlk.size a + j a)
  (h2 : ∀ j a, (e2 j a : ℕ) = i2 a * SBlk.size a + j a)

include hi h0 h2 in
-- the rows block and the result block have one block index, so they sit at the same entries
theorem emb_in (j : SBlk.Idx) : e0 j = e2 j :=
  funext fun a => Fin.ext (by rw [h0, h2, (hi a).1, (hi a).2.2])

include hi h2 in
-- the block index is zero along columns: a block keeps its columns
theorem emb_col (j : SBlk.Idx) : e2 j 1 = j 1 :=
  Fin.ext (by rw [h2, (hi 1).2.2]; exact Nat.zero_add _)

include hi h2 in
-- so the entries of one row of the block lie in one row of the array
theorem emb_row (p : Fin 5000) (k q : Fin 128) : e2 (ix2 p k) = ix2 (e2 (ix2 p q) 0) k :=
  Shape.idx_ext₂ ((h2 _ 0).trans (h2 (ix2 p q) 0).symm) (congrArg Fin.val (emb_col hi h2 (ix2 p k)))

include hi h0 h2 in
-- the product of a row block with the whole weight is the same block of the product of the arrays
theorem mm_block {pay : (SBlk.Idx → EReal) → (SWt.Idx → EReal) → SBlk.Idx → EReal}
    (hpay : ∀ x w p q, pay x w (ix2 p q) = ∑ k : Fin 128, x (ix2 p k) * w (ix2 k q))
    {e1 : SWt.Idx → SWt.Idx} (h1 : ∀ j a, (e1 j a : ℕ) = i1 a * SWt.size a + j a)
    (X : SNode.Idx → EReal) (W : SWt.Idx → EReal) (j : SBlk.Idx) :
    pay (fun j => X (e0 j)) (fun j => W (e1 j)) j = mm X W (e2 j) := by
  obtain ⟨p, q, rfl⟩ : ∃ p q, j = ix2 p q := ⟨j 0, j 1, eq_ix2 j⟩
  rw [hpay]
  unfold mm mmAt
  refine Finset.sum_congr rfl fun k _ => ?_
  rw [emb_in hi h0 h2, emb_id (fun a => (hi a).2.1) h1, emb_row hi h2 p k q, emb_col hi h2 (ix2 p q)]
  rfl

include hi h0 h2 in
-- an entrywise operation of a row block with the bias row is the same block of the operation on the arrays
theorem bias_block (f : EReal → EReal → EReal) {pay : (SBlk.Idx → EReal) → (SRow.Idx → EReal) → SBlk.Idx → EReal}
    (hpay : ∀ a b p q, pay a b (ix2 p q) = f (a (ix2 p q)) (b (ix2 0 q)))
    {e1 : SRow.Idx → SRow.Idx} (h1 : ∀ j a, (e1 j a : ℕ) = i1 a * SRow.size a + j a)
    (A : SNode.Idx → EReal) (B : SRow.Idx → EReal) (j : SBlk.Idx) :
    pay (fun j => A (e0 j)) (fun j => B (e1 j)) j = f (A (e2 j)) (B (ix2 0 (e2 j 1))) := by
  obtain ⟨p, q, rfl⟩ : ∃ p q, j = ix2 p q := ⟨j 0, j 1, eq_ix2 j⟩
  rw [hpay, emb_in hi h0 h2, emb_id (fun a => (hi a).2.1) h1, emb_col hi h2]

end Block

-- every entry of the array is in the block of a point: row r in that of point r / 5000
theorem rows_cover {N : ℕ} (hN : N = 20) {i2 : Fin N → Fin 2 → ℕ} (hi : ∀ t a, i2 t a = ![t.val, 0] a)
    {e : Fin N → SBlk.Idx ↪ SNode.Idx} (he : ∀ t j a, (e t j a : ℕ) = i2 t a * SBlk.size a + j a) (i : SNode.Idx) :
    ∃ t, i ∈ Finset.univ.map (e t) := by
  subst hN
  refine ⟨⟨i 0 / 5000, Nat.div_lt_of_lt_mul (i 0).isLt⟩, Finset.mem_map.2
    ⟨ix2 ⟨i 0 % 5000, Nat.mod_lt _ (by decide)⟩ (i 1), Finset.mem_univ _, Shape.idx_ext₂ ?_ ?_⟩⟩
  · rw [he, hi]; exact Nat.div_add_mod' _ _
  · rw [he, hi]; exact Nat.zero_add _

end Cert.KernelIdeal.LayerArr

end
-- ==== Proof.Value.LayerArr0.lean ====
import proofs.«407712_j30391188586951_1_alg».proof.Proof.Frame.Reg0
import proofs.«407712_j30391188586951_1_alg».proof.Proof.Value.LayerPay
import proofs.«407712_j30391188586951_1_alg».proof.Proof.Value.LayerCover

noncomputable section

namespace Cert.KernelIdeal.LayerArr

open Cert.KernelIdeal Cert.KernelIdeal.Gen Cert.KernelIdeal.Hand Cert.KernelIdeal.LayerPay
open Idealize.ShloMosaic Idealize.ShloMosaic.TcCoe Idealize.SL.Sem

-- at point t the rows block and the result block are block (t, 0) of their arrays, the weight block is the whole weight
theorem idx0 : ∀ (t : Fin cfg0.N) (a : Fin 2),
    win0_0.index t a = ![t.val, 0] a ∧ win0_1.index t a = 0 ∧ win0_2.index t a = ![t.val, 0] a :=
  (by decide +kernel : ∀ t : Fin grid0.N, _)

variable (V : (c : Dev nD) → (b : Ref sig .tc) → Buf (Elt Ideal) ((c : Thread nD τ).loc b))

-- each point leaves its block of the product of the two arrays, and the blocks cover the result array
theorem arr0 (c : Dev nD) : (dat0 V c).arrAt 2 cfg0.N = Cert.Spec.mm (V c main_arg0) (V c main_arg3) :=
  (dat0 V c).arrAt_eq_of_cover 2 _
    (fun t _ => funext fun j => (congrFun ((after0_2 V c t).trans (out0_2_eq _ _)) _).trans
      (mm_block (idx0 t) (win0_0.rect_emb_val t) (win0_2.rect_emb_val t) mmpay0 (win0_1.rect_emb_val t) _ _ j))
    fun i => (rows_cover N_0 (fun t a => (idx0 t a).2.2) win0_2.rect_emb_val i).imp fun t h => ⟨flush0_2 t, h⟩

end Cert.KernelIdeal.LayerArr

end
-- ==== Proof.Value.LayerArr1.lean ====
import proofs.«407712_j30391188586951_1_alg».proof.Proof.Frame.Reg1
import proofs.«407712_j30391188586951_1_alg».proof.Proof.Value.LayerPay
import proofs.«407712_j30391188586951_1_alg».proof.Proof.Value.LayerCover

noncomputable section

namespace Cert.KernelIdeal.LayerArr

open Cert.KernelIdeal Cert.KernelIdeal.Gen Cert.KernelIdeal.Hand Cert.KernelIdeal.LayerPay
open Idealize.ShloMosaic Idealize.ShloMosaic.TcCoe Idealize.ShloMosaic.ValueIdx Idealize.SL.Sem

-- at point t the rows block and the result block are block (t, 0) of their arrays, the bias block is the whole bias row
theorem idx1 : ∀ (t : Fin cfg1.N) (a : Fin 2),
    win1_0.index t a = ![t.val, 0] a ∧ win1_1.index t a = 0 ∧ win1_2.index t a = ![t.val, 0] a :=
  (by decide +kernel : ∀ t : Fin grid1.N, _)

variable (V : (c : Dev nD) → (b : Ref sig .tc) → Buf (Elt Ideal) ((c : Thread nD τ).loc b))

-- each point leaves its block of the entrywise operation on the array and the bias row, and the blocks cover the result array
theorem arr1 (c : Dev nD) :
    (dat1 V c).arrAt 2 cfg1.N
      = Cert.Spec.biasRelu (V c main_v40) (fun j : Cert.Spec.SBias.Idx => (V c main_v41 : S1x128.Idx → EReal) (ix2 (0 : Fin 1) (j 0 : Fin 128))) :=
  (dat1 V c).arrAt_eq_of_cover 2 _
    (fun t _ => funext fun j => (congrFun ((after1_2 V c t).trans (out1_2_eq _ _)) _).trans
      (bias_block (idx1 t) (win1_0.rect_emb_val t) (win1_2.rect_emb_val t) (fun a b => max (a + b) 0) biaspay1 (win1_1.rect_emb_val t) _ _ j))
    fun i => (rows_cover N_1 (fun t a => (idx1 t a).2.2) win1_2.rect_emb_val i).imp fun t h => ⟨flush1_2 t, h⟩

end Cert.KernelIdeal.LayerArr

end
-- ==== Proof.Value.LayerArr2.lean ====
import proofs.«407712_j30391188586951_1_alg».proof.Proof.Frame.Reg2
import proofs.«407712_j30391188586951_1_alg».proof.Proof.Value.LayerPay
import proofs.«407712_j30391188586951_1_alg».proof.Proof.Value.LayerCover

noncomputable section

namespace Cert.KernelIdeal.LayerArr

open Cert.KernelIdeal Cert.KernelIdeal.Gen Cert.KernelIdeal.Hand Cert.KernelIdeal.LayerPay
open Idealize.ShloMosaic Idealize.ShloMosaic.TcCoe Idealize.SL.Sem

-- at point t the rows block and the result block are block (t, 0) of their arrays, the weight block is the whole weight
theorem idx2 : ∀ (t : Fin cfg2.N) (a : Fin 2),
    win2_0.index t a = ![t.val, 0] a ∧ win2_1.index t a = 0 ∧ win2_2.index t a = ![t.val, 0] a :=
  (by decide +kernel : ∀ t : Fin grid2.N, _)

variable (V : (c : Dev nD) → (b : Ref sig .tc) → Buf (Elt Ideal) ((c : Thread nD τ).loc b))

-- each point leaves its block of the product of the two arrays, and the blocks cover the result array
theorem arr2 (c : Dev nD) : (dat2 V c).arrAt 2 cfg2.N = Cert.Spec.mm (V c main_v42) (V c main_arg5) :=
  (dat2 V c).arrAt_eq_of_cover 2 _
    (fun t _ => funext fun j => (congrFun ((after2_2 V c t).trans (out2_2_eq _ _)) _).trans
      (mm_block (idx2 t) (win2_0.rect_emb_val t) (win2_2.rect_emb_val t) mmpay2 (win2_1.rect_emb_val t) _ _ j))
    fun i => (rows_cover N_2 (fun t a => (idx2 t a).2.2) win2_2.rect_emb_val i).imp fun t h => ⟨flush2_2 t, h⟩

end Cert.KernelIdeal.LayerArr

end
-- ==== Proof.Value.LayerArr3.lean ====
import proofs.«407712_j30391188586951_1_alg».proof.Proof.Frame.Reg3
import proofs.«407712_j30391188586951_1_alg».proof.Proof.Value.LayerPay
import proofs.«407712_j30391188586951_1_alg».proof.Proof.Value.LayerCover

noncomputable section

namespace Cert.KernelIdeal.LayerArr

open Cert.KernelIdeal Cert.KernelIdeal.Gen Cert.KernelIdeal.Hand Cert.KernelIdeal.LayerPay
open Idealize.ShloMosaic Idealize.ShloMosaic.TcCoe Idealize.ShloMosaic.ValueIdx Idealize.SL.Sem

-- at point t the rows block and the result block are block (t, 0) of their arrays, the bias block is the whole bias row
theorem idx3 : ∀ (t : Fin cfg3.N) (a : Fin 2),
    win3_0.index t a = ![t.val, 0] a ∧ win3_1.index t a = 0 ∧ win3_2.index t a = ![t.val, 0] a :=
  (by decide +kernel : ∀ t : Fin grid3.N, _)

variable (V : (c : Dev nD) → (b : Ref sig .tc) → Buf (Elt Ideal) ((c : Thread nD τ).loc b))

-- each point leaves its block of the entrywise operation on the array and the bias row, and the blocks cover the result array
theorem arr3 (c : Dev nD) :
    (dat3 V c).arrAt 2 cfg3.N
      = Cert.Spec.biasRelu (V c main_v56) (fun j : Cert.Spec.SBias.Idx => (V c main_v57 : S1x128.Idx → EReal) (ix2 (0 : Fin 1) (j 0 : Fin 128))) :=
  (dat3 V c).arrAt_eq_of_cover 2 _
    (fun t _ => funext fun j => (congrFun ((after3_2 V c t).trans (out3_2_eq _ _)) _).trans
      (bias_block (idx3 t) (win3_0.rect_emb_val t) (win3_2.rect_emb_val t) (fun a b => max (a + b) 0) biaspay3 (win3_1.rect_emb_val t) _ _ j))
    fun i => (rows_cover N_3 (fun t a => (idx3 t a).2.2) win3_2.rect_emb_val i).imp fun t h => ⟨flush3_2 t, h⟩

end Cert.KernelIdeal.LayerArr

end
-- ==== Proof.Value.LayerArr4.lean ====
import proofs.«407712_j30391188586951_1_alg».proof.Proof.Frame.Reg4
import proofs.«407712_j30391188586951_1_alg».proof.Proof.Value.LayerPay
import proofs.«407712_j30391188586951_1_alg».proof.Proof.Value.LayerCover

noncomputable section

namespace Cert.KernelIdeal.LayerArr

open Cert.KernelIdeal Cert.KernelIdeal.Gen Cert.KernelIdeal.Hand Cert.KernelIdeal.LayerPay
open Idealize.ShloMosaic Idealize.ShloMosaic.TcCoe Idealize.SL.Sem

-- at point t the rows block and the result block are block (t, 0) of their arrays, the weight block is the whole weight
theorem idx4 : ∀ (t : Fin cfg4.N) (a : Fin 2),
    win4_0.index t a = ![t.val, 0] a ∧ win4_1.index t a = 0 ∧ win4_2.index t a = ![t.val, 0] a :=
  (by decide +kernel : ∀ t : Fin grid4.N, _)

variable (V : (c : Dev nD) → (b : Ref sig .tc) → Buf (Elt Ideal) ((c : Thread nD τ).loc b))

-- each point leaves its block of the product of the two arrays, and the blocks cover the result array
theorem arr4 (c : Dev nD) : (dat4 V c).arrAt 2 cfg4.N = Cert.Spec.mm (V c main_v58) (V c main_arg7) :=
  (dat4 V c).arrAt_eq_of_cover 2 _
    (fun t _ => funext fun j => (congrFun ((after4_2 V c t).trans (out4_2_eq _ _)) _).trans
      (mm_block (idx4 t) (win4_0.rect_emb_val t) (win4_2.rect_emb_val t) mmpay4 (win4_1.rect_emb_val t) _ _ j))
    fun i => (rows_cover N_4 (fun t a => (idx4 t a).2.2) win4_2.rect_emb_val i).imp fun t h => ⟨flush4_2 t, h⟩

end Cert.KernelIdeal.LayerArr

end
-- ==== Proof.Value.LayerArr5.lean ====
import proofs.«407712_j30391188586951_1_alg».proof.Proof.Frame.Reg5
import proofs.«407712_j30391188586951_1_alg».proof.Proof.Value.LayerPay
import proofs.«407712_j30391188586951_1_alg».proof.Proof.Value.LayerCover

noncomputable section

namespace Cert.KernelIdeal.LayerArr

open Cert.KernelIdeal Cert.KernelIdeal.Gen Cert.KernelIdeal.Hand Cert.KernelIdeal.LayerPay
open Idealize.ShloMosaic Idealize.ShloMosaic.TcCoe Idealize.ShloMosaic.ValueIdx Idealize.SL.Sem

-- at point t the rows block and the result block are block (t, 0) of their arrays, the bias block is the whole bias row
theorem idx5 : ∀ (t : Fin cfg5.N) (a : Fin 2),
    win5_0.index t a = ![t.val, 0] a ∧ win5_1.index t a = 0 ∧ win5_2.index t a = ![t.val, 0] a :=
  (by decide +kernel : ∀ t : Fin grid5.N, _)

variable (V : (c : Dev nD) → (b : Ref sig .tc) → Buf (Elt Ideal) ((c : Thread nD τ).loc b))

-- each point leaves its block of the entrywise operation on the array and the bias row, and the blocks cover the result array
theorem arr5 (c : Dev nD) :
    (dat5 V c).arrAt 2 cfg5.N
      = Cert.Spec.biasAdd (V c main_v72) (fun j : Cert.Spec.SBias.Idx => (V c main_v73 : S1x128.Idx → EReal) (ix2 (0 : Fin 1) (j 0 : Fin 128))) :=
  (dat5 V c).arrAt_eq_of_cover 2 _
    (fun t _ => funext fun j => (congrFun ((after5_2 V c t).trans (out5_2_eq _ _)) _).trans
      (bias_block (idx5 t) (win5_0.rect_emb_val t) (win5_2.rect_emb_val t) (· + ·) biaspay5 (win5_1.rect_emb_val t) _ _ j))
    fun i => (rows_cover N_5 (fun t a => (idx5 t a).2.2) win5_2.rect_emb_val i).imp fun t h => ⟨flush5_2 t, h⟩

end Cert.KernelIdeal.LayerArr

end
-- ==== Proof.Value.LayerArr.lean ====
import proofs.«407712_j30391188586951_1_alg».proof.Proof.Value.LayerArr0
import proofs.«407712_j30391188586951_1_alg».proof.Proof.Value.LayerArr1
import proofs.«407712_j30391188586951_1_alg».proof.Proof.Value.LayerArr2
import proofs.«407712_j30391188586951_1_alg».proof.Proof.Value.LayerArr3
import proofs.«407712_j30391188586951_1_alg».proof.Proof.Value.LayerArr4
import proofs.«407712_j30391188586951_1_alg».proof.Proof.Value.LayerArr5
-- ==== Proof.Value.PoolPay.lean ====
import proofs.«407712_j30391188586951_1_alg».proof.Proof.Gen.KernelIdeal.Skeleton
import proofs.«407712_j30391188586951_1_alg».proof.Proof.LibMatmul
import Idealize.ShloMosaic.Lib.Pipeline.Value
import Idealize.ShloMosaic.Lib.ValueIdx
import Idealize.ShloMosaic.PureOps.Ideal.Laws

noncomputable section

open scoped BigOperators

namespace Cert.KernelIdeal.PoolPay

open Idealize.ShloMosaic Idealize.ShloMosaic.ValueIdx Cert.KernelIdeal Cert.KernelIdeal.Gen

theorem one_bf16 : Ideal.ofBits .bf16 0x3F80#16 = 1 := by
  simp [Ideal.ofBits, Ideal.ieee, -EReal.coe_mul]; norm_num

theorem one_f32 : Ideal.ofBits .f32 0x3F800000#32 = 1 := by
  simp [Ideal.ofBits, Ideal.ieee, -EReal.coe_mul]; norm_num

theorem toInt_ofNat_small (g : Fin 512) : (BitVec.ofNat 32 g.val).toInt = (g.val : Int) := by
  have hg := g.isLt
  have hn : (BitVec.ofNat 32 g.val).toNat = g.val := by
    rw [BitVec.toNat_ofNat]; exact Nat.mod_eq_of_lt (by omega)
  rw [BitVec.toInt_eq_toNat_of_lt (by rw [hn]; omega), hn]

theorem word_eq_iff (x : BitVec 32) (g : Fin 512) : x = BitVec.ofNat 32 g.val ↔ x.toInt = (g.val : Int) := by
  constructor
  · rintro rfl; exact toInt_ofNat_small g
  · intro h; exact BitVec.eq_of_toInt_eq (h.trans (toInt_ofNat_small g).symm)

theorem pay1_apply (g : Fin 512) (f : Fin 128) : k6_pay1 (F := Ideal) (ix2 g f) = 0 := by
  unfold k6_pay1
  rw [shapeCast_self]
  exact Ideal.ofBits_zero_f32

theorem pay2_apply (g : Fin 512) (f : Fin 128) : k6_pay2 (F := Ideal) (ix2 g f) = 0 :=
  pay1_apply g f

theorem idcol_apply (b : IVec S2000x1 32) (r : Fin 2000) (g : Fin 512) :
    broadcastTo S2000x512 b broadcasts_S2000x1_S2000x512 (ix2 r g) = b (ix2 r 0) :=
  broadcastTo_apply b broadcasts_S2000x1_S2000x512 (ix2 r g) (ix2 r 0) (Fin.forall_fin_two.2 ⟨rfl, rfl⟩)

theorem lane_apply (r : Fin 2000) (g : Fin 512) :
    broadcastTo S2000x512 (iota .tc S1x512 32 [1] iota_S1x512_d1_w32) broadcasts_S1x512_S2000x512 (ix2 r g)
      = BitVec.ofNat 32 g.val := by
  refine (broadcastTo_apply _ broadcasts_S1x512_S2000x512 (ix2 r g) (ix2 (0 : Fin 1) g) (Fin.forall_fin_two.2 ⟨rfl, rfl⟩)).trans ?_
  exact iota_single_apply .tc S1x512 32 1 iota_S1x512_d1_w32 (ix2 (0 : Fin 1) g)

theorem sitofp_bit (c : BitVec 1) :
    FloatOps.sitofp (F := Ideal) .f32 (c.setWidth 32) = if c = 1#1 then (1 : EReal) else 0 := by
  show ((((c.setWidth 32).toInt : Int) : ℝ) : EReal) = _
  rcases BitVec.eq_zero_or_eq_one c with h | h
  · subst h
    rw [if_neg (by decide)]
    have : (BitVec.setWidth 32 0#1).toInt = 0 := by decide
    rw [this]; simp
  · subst h
    rw [if_pos rfl]
    have : (BitVec.setWidth 32 1#1).toInt = 1 := by decide
    rw [this]; simp

theorem onehot_apply (b : Vec Ideal S2000x1 .i32) (r : Fin 2000) (g : Fin 512) :
    k6_pay3 (F := Ideal) b (ix2 r g) = if (b (ix2 r 0)).toInt = (g.val : Int) then (1 : EReal) else 0 := by
  unfold k6_pay3
  rw [shapeCast_self, truncf_apply, sitofp_apply, extui_apply]
  show FloatOps.sitofp (F := Ideal) .f32
    ((IntOp.cmpi .eq (broadcastTo S2000x512 b broadcasts_S2000x1_S2000x512 (ix2 r g))
      (broadcastTo S2000x512 (iota .tc S1x512 32 [1] iota_S1x512_d1_w32) broadcasts_S1x512_S2000x512 (ix2 r g))).setWidth 32) = _
  rw [idcol_apply, lane_apply, sitofp_bit]
  by_cases h : (b (ix2 r 0)).toInt = (g.val : Int)
  · rw [if_pos h, if_pos (IntOp.cmpi_eq.mpr ((word_eq_iff _ g).mpr h))]
  · rw [if_neg h, if_neg (fun hc => h ((word_eq_iff _ g).mp (IntOp.cmpi_eq.mp hc)))]

theorem onehotT_apply (b : Vec Ideal S2000x1 .i32) (g : Fin 512) (r : Fin 2000) :
    transpose S512x2000 [1, 0] (k6_pay3 (F := Ideal) b) transposes_S2000x512_p1_0_S512x2000 (ix2 g r)
      = if (b (ix2 r 0)).toInt = (g.val : Int) then (1 : EReal) else 0 :=
  (transpose_apply [1, 0] (k6_pay3 (F := Ideal) b) transposes_S2000x512_p1_0_S512x2000 (ix2 g r) (ix2 r g)
    (Fin.forall_fin_two.2 ⟨rfl, rfl⟩)).trans (onehot_apply b r g)

theorem pay4_apply (b : Vec Ideal S2000x1 .i32) (h : Vec Ideal S2000x128 .f32) (s : Vec Ideal S512x128 .f32)
    (g : Fin 512) (f : Fin 128) :
    k6_pay4 (F := Ideal) b h s (ix2 g f)
      = s (ix2 g f) + ∑ r : Fin 2000, (if (b (ix2 r 0)).toInt = (g.val : Int) then h (ix2 r f) else 0) := by
  unfold k6_pay4
  rw [shapeCast_self, shapeCast_self, addf_apply]
  refine congrArg (s (ix2 g f) + ·) ?_
  refine (Cert.Lib.Matmul.matmul_zero_apply (A := 512) (K := 2000) (C := 128) none _ _ g f).trans ?_
  refine Finset.sum_congr rfl fun r _ => ?_
  rw [onehotT_apply, truncf_apply, ite_mul, one_mul, zero_mul]

theorem pay5_apply (b : Vec Ideal S2000x1 .i32) (s : Vec Ideal S512x128 .f32) (g : Fin 512) (f : Fin 128) :
    k6_pay5 (F := Ideal) b s (ix2 g f)
      = s (ix2 g f) + ∑ r : Fin 2000, (if (b (ix2 r 0)).toInt = (g.val : Int) then (1 : EReal) else 0) := by
  unfold k6_pay5
  rw [shapeCast_self, addf_apply]
  refine congrArg (s (ix2 g f) + ·) ?_
  refine (Cert.Lib.Matmul.matmul_zero_apply (A := 512) (K := 2000) (C := 128) none _ _ g f).trans ?_
  refine Finset.sum_congr rfl fun r _ => ?_
  rw [onehotT_apply]
  show (if (b (ix2 r 0)).toInt = (g.val : Int) then (1 : EReal) else 0) * Ideal.ofBits .bf16 0x3F80#16 = _
  rw [one_bf16, mul_one]

theorem pay6_apply (s cnt : Vec Ideal S512x128 .f32) (w : Vec Ideal S128x128 .f32) (lb : Vec Ideal S1x128 .f32)
    (g : Fin 512) (f : Fin 128) :
    k6_pay6 (F := Ideal) s cnt w lb (ix2 g f)
      = (∑ k : Fin 128, Ideal.div (s (ix2 g k)) (max (cnt (ix2 g k)) 1) * w (ix2 k f)) + lb (ix2 0 f) := by
  unfold k6_pay6
  rw [addf_apply, shapeCast_self]
  have hb : broadcastTo S512x128 lb broadcasts_S1x128_S512x128 (ix2 g f) = lb (ix2 0 f) :=
    broadcastTo_apply lb broadcasts_S1x128_S512x128 (ix2 g f) (ix2 (0 : Fin 1) f) (Fin.forall_fin_two.2 ⟨rfl, rfl⟩)
  rw [hb]
  refine congrArg (· + lb (ix2 0 f)) ?_
  refine (Cert.Lib.Matmul.matmul_zero_apply (A := 512) (K := 128) (C := 128) none _ _ g f).trans ?_
  refine Finset.sum_congr rfl fun k _ => ?_
  rw [truncf_apply, truncf_apply, divf_apply, maximumf_apply, broadcast_apply]
  show Ideal.div (s (ix2 g k)) (max (cnt (ix2 g k)) (Ideal.ofBits .f32 0x3F800000#32)) * w (ix2 k f) = _
  rw [one_f32]

end Cert.KernelIdeal.PoolPay

end
-- ==== Proof.Value.PoolAlgebra.lean ====
import proofs.«407712_j30391188586951_1_alg».proof.Proof.Value.Spec
import Mathlib.Algebra.BigOperators.Fin
import Mathlib.Logic.Equiv.Fin.Basic

noncomputable section

open scoped BigOperators

namespace Cert.Spec

open Idealize.ShloMosaic Idealize.ShloMosaic.ValueIdx

-- row r of block t of n rows is a row of the array
theorem blk_lt {m n N : ℕ} (hN : m * n = N) (t : Fin m) (r : Fin n) : n * t.val + r.val < N := by
  subst hN
  calc n * t.val + r.val < n * t.val + n := Nat.add_lt_add_left r.isLt _
    _ = n * (t.val + 1) := (Nat.mul_succ n t.val).symm
    _ ≤ n * m := Nat.mul_le_mul_left n t.isLt
    _ = m * n := Nat.mul_comm n m

-- a sum over the rows is the sum over the blocks of the sums over a block's rows
theorem sum_blocks {M : Type*} [AddCommMonoid M] (m n N : ℕ) (hN : m * n = N) (φ : Fin N → M) :
    ∑ e : Fin N, φ e = ∑ t : Fin m, ∑ r : Fin n, φ ⟨n * t.val + r.val, blk_lt hN t r⟩ := by
  subst hN
  rw [← Equiv.sum_comp finProdFinEquiv φ, Fintype.sum_prod_type]
  refine Finset.sum_congr rfl fun t _ => Finset.sum_congr rfl fun r _ => congrArg φ (Fin.ext ?_)
  show r.val + n * t.val = n * t.val + r.val
  exact Nat.add_comm _ _

-- a running total started at the first term and fed one term a step ends at the sum of all terms
theorem steps_total {M : Type*} [AddCommMonoid M] (K : ℕ) (hK : 0 < K) (X : Fin K → M) (S : (n : ℕ) → n < K → M)
    (h0 : S 0 hK = 0 + X ⟨0, hK⟩)
    (hs : ∀ n (hn : n + 1 < K), S (n + 1) hn = S n (Nat.lt_of_succ_lt hn) + X ⟨n + 1, hn⟩) :
    S (K - 1) (Nat.sub_lt hK Nat.one_pos) = ∑ t, X t := by
  have key : ∀ n (hn : n < K), S n hn = ∑ t ∈ Finset.range (n + 1), (if h : t < K then X ⟨t, h⟩ else 0) := by
    intro n
    induction n with
    | zero =>
      intro hn
      rw [Finset.sum_range_one, dif_pos hK]
      exact h0.trans (zero_add _)
    | succ n ih =>
      intro hn
      rw [hs n hn, ih (Nat.lt_of_succ_lt hn), Finset.sum_range_succ _ (n + 1), dif_pos hn]
  rw [key (K - 1) (Nat.sub_lt hK Nat.one_pos), Nat.sub_add_cancel (Nat.succ_le_of_lt hK),
    ← Fin.sum_univ_eq_sum_range (fun t => if h : t < K then X ⟨t, h⟩ else 0) K]
  exact Finset.sum_congr rfl fun t _ => dif_pos t.isLt

def blkRow (t : Fin 50) (r : Fin 2000) : Fin 100000 := ⟨2000 * t.val + r.val, blk_lt (m := 50) rfl t r⟩

def hb (h : SNode.Idx → EReal) (t : Fin 50) (r : Fin 2000) (f : Fin 128) : EReal := h (ix2 (blkRow t r) f)

-- the running sums over the 50 blocks end at the sum over all nodes of a graph
theorem poolSum_of_steps (h : SNode.Idx → EReal) (batch : SBatch.Idx → BitVec 32)
    (H : Fin 50 → Fin 2000 → Fin 128 → EReal) (B : Fin 50 → Fin 2000 → BitVec 32)
    (hH : ∀ t r f, H t r f = h (ix2 (blkRow t r) f)) (hB : ∀ t r, B t r = batch (ix1 (blkRow t r)))
    (S : (n : ℕ) → n < 50 → Fin 512 → Fin 128 → EReal)
    (h0 : ∀ g f, S 0 (by decide) g f
      = 0 + ∑ r : Fin 2000, (if (B ⟨0, by decide⟩ r).toInt = (g.val : Int) then H ⟨0, by decide⟩ r f else 0))
    (hs : ∀ n (hn : n + 1 < 50) g f, S (n + 1) hn g f
      = S n (Nat.lt_of_succ_lt hn) g f
        + ∑ r : Fin 2000, (if (B ⟨n + 1, hn⟩ r).toInt = (g.val : Int) then H ⟨n + 1, hn⟩ r f else 0))
    (g : Fin 512) (f : Fin 128) : S 49 (by decide) g f = poolSumAt h batch g f := by
  have tot := steps_total 50 (by decide)
    (fun t => ∑ r : Fin 2000, (if (B t r).toInt = (g.val : Int) then H t r f else 0))
    (fun n hn => S n hn g f) (h0 g f) (fun n hn => hs n hn g f)
  refine tot.trans ?_
  unfold poolSumAt
  rw [sum_blocks 50 2000 100000 rfl]
  refine Finset.sum_congr rfl fun t _ => Finset.sum_congr rfl fun r _ => ?_
  rw [hH, hB]
  rfl

-- the count is the sum of the constant one
theorem poolCnt_of_steps (batch : SBatch.Idx → BitVec 32)
    (B : Fin 50 → Fin 2000 → BitVec 32) (hB : ∀ t r, B t r = batch (ix1 (blkRow t r)))
    (S : (n : ℕ) → n < 50 → Fin 512 → Fin 128 → EReal)
    (h0 : ∀ g f, S 0 (by decide) g f
      = 0 + ∑ r : Fin 2000, (if (B ⟨0, by decide⟩ r).toInt = (g.val : Int) then (1 : EReal) else 0))
    (hs : ∀ n (hn : n + 1 < 50) g f, S (n + 1) hn g f
      = S n (Nat.lt_of_succ_lt hn) g f
        + ∑ r : Fin 2000, (if (B ⟨n + 1, hn⟩ r).toInt = (g.val : Int) then (1 : EReal) else 0))
    (g : Fin 512) (f : Fin 128) : S 49 (by decide) g f = poolCntAt batch g :=
  poolSum_of_steps (fun _ => 1) batch (fun _ _ _ => 1) B (fun _ _ _ => rfl) hB S h0 hs g f

end Cert.Spec

end
-- ==== Proof.Value.PoolArr.lean ====
import proofs.«407712_j30391188586951_1_alg».proof.Proof.Frame.Reg6Defs
import proofs.«407712_j30391188586951_1_alg».proof.Proof.Value.PoolPay
import proofs.«407712_j30391188586951_1_alg».proof.Proof.Value.PoolAlgebra
import proofs.«407712_j30391188586951_1_alg».proof.Proof.Value.LayerCover

noncomputable section

open scoped BigOperators

open Idealize.ShloMosaic Idealize.ShloMosaic.TcCoe Idealize.SL.Sem
open Idealize.ShloMosaic.ValueIdx

namespace Cert.KernelIdeal.PoolArr

open Cert.KernelIdeal Cert.KernelIdeal.Gen Cert.KernelIdeal.Hand
open Cert.KernelIdeal.LayerArr (emb_id)

variable (V : (c : Dev nD) → (b : Ref sig .tc) → Buf (Elt Ideal) ((c : Thread nD τ).loc b))

abbrev nodes (c : Dev nD) : Cert.Spec.SNode.Idx → EReal := V c main_v74

abbrev ids (c : Dev nD) : Cert.Spec.SBatch.Idx → BitVec 32 := fun i => V c main_v75 (ix2 (i 0) 0)

abbrev lastW (c : Dev nD) : Cert.Spec.SWt.Idx → EReal := V c main_arg9

abbrev lastB (c : Dev nD) : Cert.Spec.SBias.Idx → EReal := fun i => V c main_v76 (ix2 0 (i 0))

abbrev headArr (c : Dev nD) : Buf (Elt Ideal) ((c : Thread nD τ).loc main_v77) :=
  Cert.Spec.head (nodes V c) (ids V c) (lastW V c) (lastB V c)

theorem lt6 {n : ℕ} (h : n < 50) : n < cfg6.N := Nat.lt_of_lt_of_eq h N_6.symm

abbrev pt (t : Fin 50) : Fin cfg6.N := ⟨t.val, lt6 t.isLt⟩

-- at point t the node block and the id block are block (t, 0) of their arrays; the weight, the bias row and the result are whole
theorem idx6 : ∀ (t : Fin cfg6.N) (a : Fin 2), win6_0.index t a = ![t.val, 0] a ∧ win6_1.index t a = ![t.val, 0] a
    ∧ win6_2.index t a = 0 ∧ win6_3.index t a = 0 ∧ win6_4.index t a = 0 :=
  (by decide +kernel : ∀ t : Fin grid6.N, _)

-- entry (r, f) of block t of 2000 rows is entry (2000 t + r, f) of the array
theorem emb_blk {d : ℕ} {i : Fin 2 → ℕ} {t : Fin 50} (hi : ∀ a, i a = ![t.val, 0] a)
    {e : (⟨2, ![2000, d]⟩ : Shape).Idx → (⟨2, ![100000, d]⟩ : Shape).Idx}
    (he : ∀ j a, (e j a : ℕ) = i a * ![2000, d] a + j a) (r : Fin 2000) (f : Fin d) :
    e (ix2 r f) = ix2 (Cert.Spec.blkRow t r) f :=
  Shape.idx_ext₂ ((he _ 0).trans (by rw [hi]; exact congrArg (· + r.val) (Nat.mul_comm _ _)))
    ((he _ 1).trans (by rw [hi]; show 0 * d + f.val = f.val; rw [Nat.zero_mul, Nat.zero_add]))

theorem xblk_apply (c : Dev nD) (t : Fin 50) (r : Fin 2000) (f : Fin 128) :
    iblk6 V c 0 (pt t) (ix2 r f) = nodes V c (ix2 (Cert.Spec.blkRow t r) f) :=
  congrArg (V c main_v74) (emb_blk (fun a => (idx6 (pt t) a).1) (win6_0.rect_emb_val (pt t)) r f)

theorem bblk_apply (c : Dev nD) (t : Fin 50) (r : Fin 2000) :
    iblk6 V c 1 (pt t) (ix2 r 0) = ids V c (ix1 (Cert.Spec.blkRow t r)) :=
  congrArg (V c main_v75) (emb_blk (fun a => (idx6 (pt t) a).2.1) (win6_1.rect_emb_val (pt t)) r 0)

theorem wblk_apply (c : Dev nD) (t : Fin cfg6.N) (k : Fin 128) (f : Fin 128) :
    iblk6 V c 2 t (ix2 k f) = lastW V c (ix2 k f) :=
  congrArg (V c main_arg9) (emb_id (fun a => (idx6 t a).2.2.1) (win6_2.rect_emb_val t) _)

theorem lblk_apply (c : Dev nD) (t : Fin cfg6.N) (f : Fin 128) :
    iblk6 V c 3 t (ix2 0 f) = lastB V c (ix1 f) :=
  congrArg (V c main_v76) (emb_id (fun a => (idx6 t a).2.2.2.1) (win6_3.rect_emb_val t) _)

theorem sum_last (c : Dev nD) (g : Fin 512) (f : Fin 128) :
    (acc6 V c 49 (lt6 (by decide))).1 (ix2 g f) = Cert.Spec.poolSumAt (nodes V c) (ids V c) g f :=
  Cert.Spec.poolSum_of_steps (nodes V c) (ids V c)
    (fun t r f => iblk6 V c 0 (pt t) (ix2 r f)) (fun t r => iblk6 V c 1 (pt t) (ix2 r 0))
    (fun t r f => xblk_apply V c t r f) (fun t r => bblk_apply V c t r)
    (fun n hn g f => (acc6 V c n (lt6 hn)).1 (ix2 g f))
    (fun g f =>
      (PoolPay.pay4_apply (iblk6 V c 1 (pt ⟨0, by decide⟩)) (iblk6 V c 0 (pt ⟨0, by decide⟩)) (k6_pay1 (F := Ideal)) g f).trans
        (by rw [PoolPay.pay1_apply]))
    (fun n hn g f =>
      PoolPay.pay4_apply (iblk6 V c 1 (pt ⟨n + 1, hn⟩)) (iblk6 V c 0 (pt ⟨n + 1, hn⟩))
        (acc6 V c n (lt6 (Nat.lt_of_succ_lt hn))).1 g f)
    g f

theorem cnt_last (c : Dev nD) (g : Fin 512) (f : Fin 128) :
    (acc6 V c 49 (lt6 (by decide))).2 (ix2 g f) = Cert.Spec.poolCntAt (ids V c) g :=
  Cert.Spec.poolCnt_of_steps (ids V c)
    (fun t r => iblk6 V c 1 (pt t) (ix2 r 0)) (fun t r => bblk_apply V c t r)
    (fun n hn g f => (acc6 V c n (lt6 hn)).2 (ix2 g f))
    (fun g f =>
      (PoolPay.pay5_apply (iblk6 V c 1 (pt ⟨0, by decide⟩)) (k6_pay2 (F := Ideal)) g f).trans
        (by rw [PoolPay.pay2_apply]))
    (fun n hn g f =>
      PoolPay.pay5_apply (iblk6 V c 1 (pt ⟨n + 1, hn⟩)) (acc6 V c n (lt6 (Nat.lt_of_succ_lt hn))).2 g f)
    g f

theorem out_last (c : Dev nD) : out6_4 V c (pt 49) = headArr V c :=
  funext fun j => by
    obtain ⟨g, f, rfl⟩ : ∃ (g : Fin 512) (f : Fin 128), j = ix2 g f := ⟨j 0, j 1, eq_ix2 j⟩
    refine (PoolPay.pay6_apply (acc6 V c 49 (lt6 (by decide))).1 (acc6 V c 49 (lt6 (by decide))).2
      (iblk6 V c 2 (pt 49)) (iblk6 V c 3 (pt 49)) g f).trans ?_
    show _ = Cert.Spec.headAt (nodes V c) (ids V c) (lastW V c) (lastB V c) g f
    unfold Cert.Spec.headAt Cert.Spec.pooledAt
    rw [lblk_apply V c (pt 49) f]
    refine congrArg (· + lastB V c (ix1 f)) (Finset.sum_congr rfl fun k _ => ?_)
    rw [sum_last V c g k, cnt_last V c g k, wblk_apply V c (pt 49) k f]

-- the result block is the whole result array, written back by the last point
theorem flushed_eq (c : Dev nD) (t : Fin cfg6.N) (hf : (cfg6.win 4).flush t = true) :
    (dat6 V c).flushed 4 t = ((cfg6.win 4).blk t).view.read (Elt Ideal) (headArr V c) := by
  have hN : cfg6.N = 50 := N_6
  have h49 : t.val = 49 := by have := (flush6_4 t).mp hf; have := t.isLt; omega
  obtain rfl : t = pt 49 := Fin.ext h49
  exact funext fun j => (congrFun ((after6_4 V c _).trans (out_last V c)) _).trans
    (congrArg (headArr V c) (emb_id (fun a => (idx6 _ a).2.2.2.2) (win6_4.rect_emb_val (pt 49)) j).symm)

theorem arr6 (c : Dev nD) :
    (dat6 V c).arrAt 4 cfg6.N
      = Cert.Spec.head (V c main_v74) (fun i => V c main_v75 (ix2 (i 0) 0)) (V c main_arg9)
          (fun i => V c main_v76 (ix2 0 (i 0))) :=
  (dat6 V c).arrAt_eq_of_cover 4 (headArr V c) (flushed_eq V c) fun i =>
    ⟨pt 49, (flush6_4 (pt 49)).mpr rfl, by
      rw [← emb_id (fun a => (idx6 _ a).2.2.2.2) (win6_4.rect_emb_val (pt 49)) i]
      exact View.emb_mem_set _ i⟩

end Cert.KernelIdeal.PoolArr

end
-- ==== Proof.Value.KernelSide.lean ====
import proofs.«407712_j30391188586951_1_alg».proof.Proof.Value.HostK
import proofs.«407712_j30391188586951_1_alg».proof.Proof.Value.LayerArr
import proofs.«407712_j30391188586951_1_alg».proof.Proof.Value.PoolArr
import proofs.«407712_j30391188586951_1_alg».proof.Proof.Value.Spec

noncomputable section

namespace Cert.KernelIdeal.KernelSide

open Cert.KernelIdeal Cert.KernelIdeal.Gen Cert.KernelIdeal.Hand Idealize.ShloMosaic Idealize.ShloMosaic.TcCoe Idealize.SL.Sem
open Idealize.ShloMosaic.ValueIdx Cert.KernelIdeal.HostK

variable (m : (ℓ : Loc nD τ sig) → Buf (Elt Ideal) ℓ) (outs : Gen.Outs (F := Ideal))

theorem row_eq {V : (Cert.Spec.SBias).Idx → EReal} {Wrow : (⟨2, ![1, 128]⟩ : Shape).Idx → EReal}
    (h : ∀ q : Fin 128, Wrow (ix2 (0 : Fin 1) q) = V (ix1 q)) :
    (fun i : (Cert.Spec.SBias).Idx => Wrow (ix2 (0 : Fin 1) (i 0))) = V := by
  funext i
  rw [h (i 0)]
  exact congrArg V (eq_ix1 i).symm

theorem col_eq {B : (Cert.Spec.SBatch).Idx → BitVec 32} {Wcol : (⟨2, ![100000, 1]⟩ : Shape).Idx → BitVec 32}
    (h : ∀ e : Fin 100000, Wcol (ix2 e (0 : Fin 1)) = B (ix1 e)) :
    (fun i : (Cert.Spec.SBatch).Idx => Wcol (ix2 (i 0) (0 : Fin 1))) = B := by
  funext i
  rw [h (i 0)]
  exact congrArg B (eq_ix1 i).symm

section Stages

variable (V : (c : Dev nD) → (b : Ref sig .tc) → Buf (Elt Ideal) ((c : Thread nD τ).loc b)) (c : Dev nD)

theorem stage_mm0 {o : Buf (Elt Ideal) ((c : Thread nD τ).loc main_v27)} (ho : o = (dat0 V c).arrAt 2 cfg0.N)
    {x : (Cert.Spec.SNode).Idx → EReal} {w : (Cert.Spec.SWt).Idx → EReal} (hx : V c main_arg0 = x) (hw : V c main_arg3 = w) :
    o = Cert.Spec.mm x w := by
  rw [ho, Cert.KernelIdeal.LayerArr.arr0 V c, hx, hw]
theorem stage_mm2 {o : Buf (Elt Ideal) ((c : Thread nD τ).loc main_v43)} (ho : o = (dat2 V c).arrAt 2 cfg2.N)
    {x : (Cert.Spec.SNode).Idx → EReal} {w : (Cert.Spec.SWt).Idx → EReal} (hx : V c main_v42 = x) (hw : V c main_arg5 = w) :
    o = Cert.Spec.mm x w := by
  rw [ho, Cert.KernelIdeal.LayerArr.arr2 V c, hx, hw]
theorem stage_mm4 {o : Buf (Elt Ideal) ((c : Thread nD τ).loc main_v59)} (ho : o = (dat4 V c).arrAt 2 cfg4.N)
    {x : (Cert.Spec.SNode).Idx → EReal} {w : (Cert.Spec.SWt).Idx → EReal} (hx : V c main_v58 = x) (hw : V c main_arg7 = w) :
    o = Cert.Spec.mm x w := by
  rw [ho, Cert.KernelIdeal.LayerArr.arr4 V c, hx, hw]

theorem stage_bias1 {o : Buf (Elt Ideal) ((c : Thread nD τ).loc main_v42)} (ho : o = (dat1 V c).arrAt 2 cfg1.N)
    {a : (Cert.Spec.SNode).Idx → EReal} {b : (Cert.Spec.SBias).Idx → EReal} (ha : V c main_v40 = a)
    (hb : ∀ q : Fin 128, V c main_v41 (ix2 (0 : Fin 1) q) = b (ix1 q)) :
    o = Cert.Spec.biasRelu a b := by
  rw [ho, Cert.KernelIdeal.LayerArr.arr1 V c, ha, row_eq hb]
theorem stage_bias3 {o : Buf (Elt Ideal) ((c : Thread nD τ).loc main_v58)} (ho : o = (dat3 V c).arrAt 2 cfg3.N)
    {a : (Cert.Spec.SNode).Idx → EReal} {b : (Cert.Spec.SBias).Idx → EReal} (ha : V c main_v56 = a)
    (hb : ∀ q : Fin 128, V c main_v57 (ix2 (0 : Fin 1) q) = b (ix1 q)) :
    o = Cert.Spec.biasRelu a b := by
  rw [ho, Cert.KernelIdeal.LayerArr.arr3 V c, ha, row_eq hb]
theorem stage_bias5 {o : Buf (Elt Ideal) ((c : Thread nD τ).loc main_v74)} (ho : o = (dat5 V c).arrAt 2 cfg5.N)
    {a : (Cert.Spec.SNode).Idx → EReal} {b : (Cert.Spec.SBias).Idx → EReal} (ha : V c main_v72 = a)
    (hb : ∀ q : Fin 128, V c main_v73 (ix2 (0 : Fin 1) q) = b (ix1 q)) :
    o = Cert.Spec.biasAdd a b := by
  rw [ho, Cert.KernelIdeal.LayerArr.arr5 V c, ha, row_eq hb]

theorem stage_pool {o : Buf (Elt Ideal) ((c : Thread nD τ).loc main_v77)} (ho : o = (dat6 V c).arrAt 4 cfg6.N)
    {h : (Cert.Spec.SNode).Idx → EReal} {ids : (Cert.Spec.SBatch).Idx → BitVec 32} {w : (Cert.Spec.SWt).Idx → EReal}
    {b : (Cert.Spec.SBias).Idx → EReal} (hh : V c main_v74 = h)
    (hids : ∀ e : Fin 100000, V c main_v75 (ix2 e (0 : Fin 1)) = ids (ix1 e)) (hw : V c main_arg9 = w)
    (hb : ∀ q : Fin 128, V c main_v76 (ix2 (0 : Fin 1) q) = b (ix1 q)) :
    o = Cert.Spec.head h ids w b := by
  rw [ho, Cert.KernelIdeal.PoolArr.arr6 V c, hh, col_eq hids, hw, row_eq hb]

end Stages

theorem kernel_result (c : Dev nD)
    (o2 : outs 2 main_v27 c = (dat0 (fun c b => Gen.V1 m c b) c).arrAt 2 cfg0.N)
    (o4 : outs 4 main_v42 c = (dat1 (fun c b => Gen.V3 m outs c b) c).arrAt 2 cfg1.N)
    (o5 : outs 5 main_v43 c = (dat2 (fun c b => Gen.V4 m outs c b) c).arrAt 2 cfg2.N)
    (o7 : outs 7 main_v58 c = (dat3 (fun c b => Gen.V6 m outs c b) c).arrAt 2 cfg3.N)
    (o8 : outs 8 main_v59 c = (dat4 (fun c b => Gen.V7 m outs c b) c).arrAt 2 cfg4.N)
    (o10 : outs 10 main_v74 c = (dat5 (fun c b => Gen.V9 m outs c b) c).arrAt 2 cfg5.N)
    (o12 : outs 12 main_v77 c = (dat6 (fun c b => Gen.V11 m outs c b) c).arrAt 4 cfg6.N) :
    outs 12 main_v77 c
      = Cert.Spec.head
          (Cert.Spec.biasAdd
            (Cert.ReferenceIdeal.Agg.agg (F := Ideal) (edges m c)
              (Cert.Spec.mm
                (Cert.Spec.biasRelu
                  (Cert.ReferenceIdeal.Agg.agg (F := Ideal) (edges m c)
                    (Cert.Spec.mm
                      (Cert.Spec.biasRelu
                        (Cert.ReferenceIdeal.Agg.agg (F := Ideal) (edges m c)
                          (Cert.Spec.mm (m ((c : Thread nD τ).loc main_arg0)) (m ((c : Thread nD τ).loc main_arg3))))
                        (m ((c : Thread nD τ).loc main_arg4)))
                      (m ((c : Thread nD τ).loc main_arg5))))
                  (m ((c : Thread nD τ).loc main_arg6)))
                (m ((c : Thread nD τ).loc main_arg7))))
            (m ((c : Thread nD τ).loc main_arg8)))
          (m ((c : Thread nD τ).loc main_arg2)) (m ((c : Thread nD τ).loc main_arg9)) (m ((c : Thread nD τ).loc main_arg10)) := by
  have e2 := stage_mm0 (fun c b => Gen.V1 m c b) c o2 (in0_x m c) (in0_w m c)
  have e4 := stage_bias1 (fun c b => Gen.V3 m outs c b) c o4 (in1_agg m outs c) (in1_bias m outs c)
  have e5 := stage_mm2 (fun c b => Gen.V4 m outs c b) c o5 (in2_h m outs c) (in2_w m outs c)
  have e7 := stage_bias3 (fun c b => Gen.V6 m outs c b) c o7 (in3_agg m outs c) (in3_bias m outs c)
  have e8 := stage_mm4 (fun c b => Gen.V7 m outs c b) c o8 (in4_h m outs c) (in4_w m outs c)
  have e10 := stage_bias5 (fun c b => Gen.V9 m outs c b) c o10 (in5_agg m outs c) (in5_bias m outs c)
  have e12 := stage_pool (fun c b => Gen.V11 m outs c b) c o12 (in6_h m outs c) (in6_ids m outs c) (in6_w m outs c) (in6_bias m outs c)
  rw [e12, e10, e8, e7, e5, e4, e2]

end Cert.KernelIdeal.KernelSide

end
-- ==== Proof.LibRowGatherScatter.lean ====
import Idealize.ShloMosaic.Lib.ValueIdx
import Idealize.ShloMosaic.PureOps.Ideal.Laws

noncomputable section

namespace Cert.Lib.RowPass

open Idealize.ShloMosaic Idealize.ShloMosaic.ValueIdx

section Generic

abbrev scD (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

variable {N E W w : Nat} (wf : ScatterDims.WF ⟨2, ![N, W]⟩ ⟨2, ![E, 1]⟩ ⟨2, ![E, W]⟩ [1] [0] [0] 1)

theorem sc_start0 (idx : IVec ⟨2, ![E, 1]⟩ w) (e : Fin E) (q : Fin W) :
    (scD N E W wf).start (ix2 e q) idx 0 = (idx (ix2 e 0)).toInt := by
  unfold ScatterDims.start
  rw [dif_pos (show (0 : Fin 2) ∈ (scD N E W wf).scatterDimsToOperandDims from List.mem_singleton.mpr rfl)]
  congr 2
  funext b
  match b with
  | ⟨0, _⟩ => rfl
  | ⟨1, _⟩ => rfl

theorem sc_start1 (idx : IVec ⟨2, ![E, 1]⟩ w) (e : Fin E) (q : Fin W) :
    (scD N E W wf).start (ix2 e q) idx 1 = 0 := by
  unfold ScatterDims.start
  rw [dif_neg (show (1 : Fin 2) ∉ ([0] : List (Fin 2)) by decide)]

theorem sc_window0 (e : Fin E) (q : Fin W) : (scD N E W wf).window (ix2 e q) 0 = 0 := by
  unfold ScatterDims.window
  have h : (0 : Fin 2) ∉ (scD N E W wf).sKept :=
    (by decide : (0 : Fin 2) ∉ (List.finRange 2).filter (fun a => a ∉ ([0] : List (Fin 2))))
  rw [dif_neg h]

theorem sc_window1 (e : Fin E) (q : Fin W) : (scD N E W wf).window (ix2 e q) 1 = q.val := by
  unfold ScatterDims.window
  have h : (1 : Fin 2) ∈ (scD N E W wf).sKept :=
    (by decide : (1 : Fin 2) ∈ (List.finRange 2).filter (fun a => a ∉ ([0] : List (Fin 2))))
  rw [dif_pos h]
  rfl

theorem fin2_cases (a : Fin 2) : a = 0 ∨ a = 1 := by
  revert a; decide

theorem sc_result_iff (idx : IVec ⟨2, ![E, 1]⟩ w) (e : Fin E) (q q' : Fin W) (n : Fin N) :
    (scD N E W wf).resultIdx? (ix2 e q) idx = some (ix2 n q')
      ↔ (idx (ix2 e 0)).toInt = (n.val : Int) ∧ q = q' := by
  have hq := q.isLt
  have hn := n.isLt
  unfold ScatterDims.resultIdx?
  split
  · rename_i h
    have h0 := h 0
    rw [sc_start0, sc_window0] at h0
    constructor
    · intro hs
      have hs' := Option.some.inj hs
      have e0 := congrArg (fun f => (f 0).val) hs'
      have e1 := congrArg (fun f => (f 1).val) hs'
      simp only [sc_start0, sc_start1, sc_window0, sc_window1] at e0 e1
      refine ⟨?_, Fin.ext ?_⟩
      · change _ = n.val at e0
        omega
      · change _ = q'.val at e1
        omega
    · rintro ⟨ht, rfl⟩
      congr 1
      funext a
      refine Fin.ext ?_
      rcases fin2_cases a with rfl | rfl
      · show ((scD N E W wf).start (ix2 e q) idx 0 + ((scD N E W wf).window (ix2 e q) 0 : Int)).toNat = n.val
        rw [sc_start0, sc_window0, ht]; omega
      · show ((scD N E W wf).start (ix2 e q) idx 1 + ((scD N E W wf).window (ix2 e q) 1 : Int)).toNat = q.val
        rw [sc_start1, sc_window1]; omega
  · rename_i h
    constructor
    · intro hs; exact absurd hs (by simp)
    · rintro ⟨ht, rfl⟩
      exfalso; apply h
      intro a
      rcases fin2_cases a with rfl | rfl
      · rw [sc_start0, sc_window0, ht]
        show (0 : Int) ≤ (n.val : Int) + ((0 : Nat) : Int) ∧ (n.val : Int) + ((0 : Nat) : Int) < (N : Int)
        omega
      · rw [sc_start1, sc_window1]
        show (0 : Int) ≤ 0 + (q.val : Int) ∧ 0 + (q.val : Int) < (W : Int)
        omega

theorem sc_apply (x : (⟨2, ![N, W]⟩ : Shape).Idx → EReal) (idx : IVec ⟨2, ![E, 1]⟩ w)
    (upd : (⟨2, ![E, W]⟩ : Shape).Idx → EReal) (n : Fin N) (q : Fin W) :
    Ideal.hostScatterAdd (scD N E W wf) x idx upd (ix2 n q)
      = x (ix2 n q) + ∑ e : Fin E, if (idx (ix2 e 0)).toInt = (n.val : Int) then upd (ix2 e q) else 0 := by
  show x (ix2 n q) + ∑ j ∈ Finset.univ.filter (fun j => (scD N E W wf).resultIdx? j idx = some (ix2 n q)), upd j = _
  congr 1
  rw [Finset.sum_filter, sum_idx2]
  refine Finset.sum_congr rfl fun e _ => ?_
  rw [Finset.sum_congr rfl fun q' _ => if_congr (sc_result_iff wf idx e q' q n) rfl rfl]
  by_cases ht : (idx (ix2 e 0)).toInt = (n.val : Int)
  · simp [ht]
  · simp [ht]

end Generic

end Cert.Lib.RowPass

end
-- ==== Proof.LibVecGatherScatter.lean ====
import Idealize.ShloMosaic.Lib.ValueIdx
import Idealize.ShloMosaic.PureOps.Ideal.Laws

noncomputable section

namespace Cert.Lib.VecPass

open Idealize.ShloMosaic Idealize.ShloMosaic.ValueIdx

section Generic

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem fin1_eq (a : Fin 1) : a = 0 := Subsingleton.elim _ _

abbrev scD1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem sc1_start (idx : IVec ⟨2, ![E, 1]⟩ w) (e : Fin E) :
    (scD1 N E wf).start (ix1 e) idx 0 = (idx (ix2 e 0)).toInt := by
  unfold ScatterDims.start
  rw [dif_pos (show (0 : Fin 1) ∈ (scD1 N E wf).scatterDimsToOperandDims from List.mem_singleton.mpr rfl)]
  congr 2
  funext b
  match b with
  | ⟨0, _⟩ => rfl
  | ⟨1, _⟩ => rfl

theorem sc1_window (e : Fin E) : (scD1 N E wf).window (ix1 e) 0 = 0 := by
  unfold ScatterDims.window
  have h : (0 : Fin 1) ∉ (scD1 N E wf).sKept :=
    (by decide : (0 : Fin 1) ∉ (List.finRange 1).filter (fun a => a ∉ ([0] : List (Fin 1))))
  rw [dif_neg h]

theorem sc1_result_iff (idx : IVec ⟨2, ![E, 1]⟩ w) (e : Fin E) (n : Fin N) :
    (scD1 N E wf).resultIdx? (ix1 e) idx = some (ix1 n) ↔ (idx (ix2 e 0)).toInt = (n.val : Int) := by
  have hn := n.isLt
  unfold ScatterDims.resultIdx?
  split
  · rename_i h
    have h0 := h 0
    rw [sc1_start, sc1_window] at h0
    constructor
    · intro hs
      have hs' := Option.some.inj hs
      have e0 := congrArg (fun f => (f 0).val) hs'
      simp only [sc1_start, sc1_window] at e0
      change _ = n.val at e0
      omega
    · intro ht
      congr 1
      funext a
      refine Fin.ext ?_
      obtain rfl := fin1_eq a
      show ((scD1 N E wf).start (ix1 e) idx 0 + ((scD1 N E wf).window (ix1 e) 0 : Int)).toNat = n.val
      rw [sc1_start, sc1_window, ht]; omega
  · rename_i h
    constructor
    · intro hs; exact absurd hs (by simp)
    · intro ht
      exfalso; apply h
      intro a
      obtain rfl := fin1_eq a
      rw [sc1_start, sc1_window, ht]
      show (0 : Int) ≤ (n.val : Int) + ((0 : Nat) : Int) ∧ (n.val : Int) + ((0 : Nat) : Int) < (N : Int)
      omega

theorem sc1_apply (x : (⟨1, ![N]⟩ : Shape).Idx → EReal) (idx : IVec ⟨2, ![E, 1]⟩ w)
    (upd : (⟨1, ![E]⟩ : Shape).Idx → EReal) (n : Fin N) :
    Ideal.hostScatterAdd (scD1 N E wf) x idx upd (ix1 n)
      = x (ix1 n) + ∑ e : Fin E, if (idx (ix2 e 0)).toInt = (n.val : Int) then upd (ix1 e) else 0 := by
  show x (ix1 n) + ∑ j ∈ Finset.univ.filter (fun j => (scD1 N E wf).resultIdx? j idx = some (ix1 n)), upd j = _
  congr 1
  rw [Finset.sum_filter, sum_idx1]
  exact Finset.sum_congr rfl fun e _ => if_congr (sc1_result_iff wf idx e n) rfl rfl

end Generic

end Cert.Lib.VecPass

end
-- ==== Proof.Value.RefSide.lean ====
import proofs.«407712_j30391188586951_1_alg».proof.Proof.Value.RefRead
import proofs.«407712_j30391188586951_1_alg».proof.Proof.Value.Spec
import proofs.«407712_j30391188586951_1_alg».proof.Proof.Value.Agg
import proofs.«407712_j30391188586951_1_alg».proof.Proof.LibMatmul
import proofs.«407712_j30391188586951_1_alg».proof.Proof.LibRowGatherScatter
import proofs.«407712_j30391188586951_1_alg».proof.Proof.LibVecGatherScatter

noncomputable section

open scoped BigOperators

namespace Cert.ReferenceIdeal.RefSide

open Cert.ReferenceIdeal Cert.ReferenceIdeal.Gen Idealize.ShloMosaic Idealize.ShloMosaic.TcCoe Idealize.SL.Sem Idealize.ShloMosaic.StableHlo Idealize.ShloMosaic.ValueIdx

variable (x0 : (⟨S100000x128, .f32⟩ : BufTy).Contents (Elt Ideal))
  (x1 : (⟨S2x1600000, .i32⟩ : BufTy).Contents (Elt Ideal))
  (x2 : (⟨S100000, .i32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S128x128, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))

theorem zero2_eq : Read.val_main_v56 (F := Ideal) = Read.val_main_v38 (F := Ideal) := rfl

theorem zero3_eq : Read.val_main_v74 (F := Ideal) = Read.val_main_v38 (F := Ideal) := rfl

theorem dst2_eq : Read.val_main_v57 (F := Ideal) x1 = Read.val_main_v39 (F := Ideal) x1 := rfl

theorem dst3_eq : Read.val_main_v75 (F := Ideal) x1 = Read.val_main_v39 (F := Ideal) x1 := rfl

theorem src2_eq : Read.val_main_v51 (F := Ideal) x1 = Read.val_main_v33 (F := Ideal) x1 := rfl

theorem src3_eq : Read.val_main_v69 (F := Ideal) x1 = Read.val_main_v33 (F := Ideal) x1 := rfl

theorem norm2_eq : Read.val_main_v54 (F := Ideal) x1 = Read.val_main_v36 (F := Ideal) x1 := rfl

theorem norm3_eq : Read.val_main_v72 (F := Ideal) x1 = Read.val_main_v36 (F := Ideal) x1 := rfl

theorem v40_eq :
    Read.val_main_v40 (F := Ideal) x0 x1 x3 = Agg.agg (F := Ideal) x1 (Read.val_main_v27 (F := Ideal) x0 x3) := rfl

-- layers two and three rebuild the edge arrays by the first layer's operations, so their step is the first layer's
theorem v58_eq :
    Read.val_main_v58 (F := Ideal) x0 x1 x3 x4 x5 = Agg.agg (F := Ideal) x1 (Read.val_main_v45 (F := Ideal) x0 x1 x3 x4 x5) := by
  unfold Read.val_main_v58 Read.val_main_v55 Read.val_main_v52 Agg.agg
  rw [zero2_eq, dst2_eq, src2_eq, norm2_eq]

theorem v76_eq :
    Read.val_main_v76 (F := Ideal) x0 x1 x3 x4 x5 x6 x7 = Agg.agg (F := Ideal) x1 (Read.val_main_v63 (F := Ideal) x0 x1 x3 x4 x5 x6 x7) := by
  unfold Read.val_main_v76 Read.val_main_v73 Read.val_main_v70 Agg.agg
  rw [zero3_eq, dst3_eq, src3_eq, norm3_eq]

theorem v27_eq (a : (⟨S100000x128, .f32⟩ : BufTy).Contents (Elt Ideal)) (w : (⟨S128x128, .f32⟩ : BufTy).Contents (Elt Ideal)) :
    Read.val_main_v27 (F := Ideal) a w = Cert.Spec.mm a w := by
  funext i
  obtain ⟨p, q, rfl⟩ : ∃ (p : Fin 100000) (q : Fin 128), i = ix2 p q := ⟨i 0, i 1, eq_ix2 i⟩
  rw [Read.val_main_v27_apply, Cert.Spec.mm_apply]
  unfold Cert.Spec.mmAt
  refine Finset.sum_congr rfl fun k _ => ?_
  have el : Read.lidx_main_v27 (ix2 p q) k = ix2 p k := funext fun a => Fin.ext (by
    match a with
    | ⟨0, _⟩ => rfl
    | ⟨1, _⟩ => rfl)
  have er : Read.ridx_main_v27 (ix2 p q) k = ix2 k q := funext fun a => Fin.ext (by
    match a with
    | ⟨0, _⟩ => rfl
    | ⟨1, _⟩ => rfl)
  rw [el, er]

theorem v45_eq :
    Read.val_main_v45 (F := Ideal) x0 x1 x3 x4 x5 = Cert.Spec.mm (Read.val_main_v44 (F := Ideal) x0 x1 x3 x4) x5 :=
  v27_eq (Read.val_main_v44 (F := Ideal) x0 x1 x3 x4) x5

theorem v63_eq :
    Read.val_main_v63 (F := Ideal) x0 x1 x3 x4 x5 x6 x7 = Cert.Spec.mm (Read.val_main_v62 (F := Ideal) x0 x1 x3 x4 x5 x6) x7 :=
  v27_eq (Read.val_main_v62 (F := Ideal) x0 x1 x3 x4 x5 x6) x7

theorem bias1_idx (p : Fin 100000) (q : Fin 128) : Read.idx_main_v41 (Read.idx_main_v42 (ix2 p q)) = ix1 q :=
  funext fun a => Fin.ext (by match a with | ⟨0, _⟩ => rfl)
theorem bias2_idx (p : Fin 100000) (q : Fin 128) : Read.idx_main_v59 (Read.idx_main_v60 (ix2 p q)) = ix1 q :=
  funext fun a => Fin.ext (by match a with | ⟨0, _⟩ => rfl)
theorem bias3_idx (p : Fin 100000) (q : Fin 128) : Read.idx_main_v77 (Read.idx_main_v78 (ix2 p q)) = ix1 q :=
  funext fun a => Fin.ext (by match a with | ⟨0, _⟩ => rfl)

theorem v44_eq :
    Read.val_main_v44 (F := Ideal) x0 x1 x3 x4 = Cert.Spec.biasRelu (Read.val_main_v40 (F := Ideal) x0 x1 x3) x4 := by
  funext i
  obtain ⟨p, q, rfl⟩ : ∃ (p : Fin 100000) (q : Fin 128), i = ix2 p q := ⟨i 0, i 1, eq_ix2 i⟩
  rw [Read.val_main_v44_apply, Read.val_main_v43_apply, Read.val_main_v42_apply, Read.val_main_v41_apply,
    Read.val_main_call0_v0_apply, Read.val_main_call0_cst_apply, bias1_idx, Cert.Spec.biasRelu_apply]
  simp only [Ideal.maximumf_def, Ideal.addf_def, Ideal.ofBits_def, Ideal.ofBits_zero_f32]

theorem v62_eq :
    Read.val_main_v62 (F := Ideal) x0 x1 x3 x4 x5 x6 = Cert.Spec.biasRelu (Read.val_main_v58 (F := Ideal) x0 x1 x3 x4 x5) x6 := by
  funext i
  obtain ⟨p, q, rfl⟩ : ∃ (p : Fin 100000) (q : Fin 128), i = ix2 p q := ⟨i 0, i 1, eq_ix2 i⟩
  rw [Read.val_main_v62_apply, Read.val_main_v61_apply, Read.val_main_v60_apply, Read.val_main_v59_apply,
    Read.val_main_call1_v0_apply, Read.val_main_call1_cst_apply, bias2_idx, Cert.Spec.biasRelu_apply]
  simp only [Ideal.maximumf_def, Ideal.addf_def, Ideal.ofBits_def, Ideal.ofBits_zero_f32]

theorem v79_eq :
    Read.val_main_v79 (F := Ideal) x0 x1 x3 x4 x5 x6 x7 x8 = Cert.Spec.biasAdd (Read.val_main_v76 (F := Ideal) x0 x1 x3 x4 x5 x6 x7) x8 := by
  funext i
  obtain ⟨p, q, rfl⟩ : ∃ (p : Fin 100000) (q : Fin 128), i = ix2 p q := ⟨i 0, i 1, eq_ix2 i⟩
  rw [Read.val_main_v79_apply, Read.val_main_v78_apply, Read.val_main_v77_apply, bias3_idx, Cert.Spec.biasAdd_apply]
  simp only [Ideal.addf_def]

theorem one_f32 : Ideal.ofBits .f32 0x3F800000#32 = (1 : EReal) := by
  simp [Ideal.ofBits, Ideal.ieee, -EReal.coe_mul]; norm_num

theorem ids_idx (e : Fin 100000) : Read.idx_main_v81 (ix2 e (0 : Fin 1)) = ix1 e :=
  funext fun a => Fin.ext (by match a with | ⟨0, _⟩ => rfl)
theorem ids_idx' (e : Fin 100000) : Read.idx_main_v85 (ix2 e (0 : Fin 1)) = ix1 e :=
  funext fun a => Fin.ext (by match a with | ⟨0, _⟩ => rfl)

theorem v82_apply (g : Fin 512) (f : Fin 128) :
    Read.val_main_v82 (F := Ideal) x0 x1 x2 x3 x4 x5 x6 x7 x8 (ix2 g f)
      = Cert.Spec.poolSumAt (Read.val_main_v79 (F := Ideal) x0 x1 x3 x4 x5 x6 x7 x8) x2 g f := by
  unfold Read.val_main_v82
  generalize Read.val_main_v79 (F := Ideal) x0 x1 x3 x4 x5 x6 x7 x8 = h
  show Ideal.hostScatterAdd (w := 32)
      (Cert.Lib.RowPass.scD 512 100000 128 Facts₀.scatter_S512x128_S100000x1_S100000x128_1_0_0_1_wf)
      (Read.val_main_v80 (F := Ideal)) (Read.val_main_v81 (F := Ideal) x2) h (ix2 g f) = _
  rw [Cert.Lib.RowPass.sc_apply, Read.val_main_v80_apply, Read.val_main_cst_13_apply]
  simp only [Ideal.ofBits_def, Ideal.ofBits_zero_f32, zero_add]
  unfold Cert.Spec.poolSumAt
  refine Finset.sum_congr rfl fun e _ => ?_
  rw [Read.val_main_v81_apply, ids_idx]

theorem v86_apply (g : Fin 512) :
    Read.val_main_v86 (F := Ideal) x2 (ix1 g) = Cert.Spec.poolCntAt x2 g := by
  unfold Read.val_main_v86
  show Ideal.hostScatterAdd (w := 32)
      (Cert.Lib.VecPass.scD1 512 100000 Facts₀.scatter_S512_S100000x1_S100000_n_0_0_1_wf)
      (Read.val_main_v84 (F := Ideal)) (Read.val_main_v85 (F := Ideal) x2) (Read.val_main_v83 (F := Ideal)) (ix1 g) = _
  rw [Cert.Lib.VecPass.sc1_apply, Read.val_main_v84_apply, Read.val_main_cst_15_apply]
  simp only [Ideal.ofBits_def, Ideal.ofBits_zero_f32, zero_add]
  unfold Cert.Spec.poolCntAt
  refine Finset.sum_congr rfl fun e _ => ?_
  rw [Read.val_main_v85_apply, ids_idx', Read.val_main_v83_apply, Read.val_main_cst_14_apply, Ideal.ofBits_def, one_f32]

theorem cnt_idx (g : Fin 512) (k : Fin 128) : Read.idx_main_v89 (Read.idx_main_v90 (ix2 g k)) = ix1 g :=
  funext fun a => Fin.ext (by match a with | ⟨0, _⟩ => rfl)

theorem v90_apply (g : Fin 512) (k : Fin 128) :
    Read.val_main_v90 (F := Ideal) x2 (ix2 g k) = max (Cert.Spec.poolCntAt x2 g) 1 := by
  rw [Read.val_main_v90_apply, Read.val_main_v89_apply, cnt_idx, Read.val_main_v88_apply, v86_apply,
    Read.val_main_v87_apply, Read.val_main_cst_16_apply, Ideal.maximumf_def, Ideal.ofBits_def, one_f32]

theorem lb_idx (g : Fin 512) (f : Fin 128) : Read.idx_main_v93 (Read.idx_main_v94 (ix2 g f)) = ix1 f :=
  funext fun a => Fin.ext (by match a with | ⟨0, _⟩ => rfl)

theorem v95_eq :
    Read.val_main_v95 (F := Ideal) x0 x1 x2 x3 x4 x5 x6 x7 x8 x9 x10
      = Cert.Spec.head (Read.val_main_v79 (F := Ideal) x0 x1 x3 x4 x5 x6 x7 x8) x2 x9 x10 := by
  funext i
  obtain ⟨g, f, rfl⟩ : ∃ (g : Fin 512) (f : Fin 128), i = ix2 g f := ⟨i 0, i 1, eq_ix2 i⟩
  rw [Read.val_main_v95_apply, Read.val_main_v92_apply, Read.val_main_v94_apply, Read.val_main_v93_apply, lb_idx,
    Cert.Spec.head_apply, Ideal.addf_def]
  unfold Cert.Spec.headAt
  refine congrArg (fun s : EReal => s + x10 (ix1 f)) ?_
  refine Finset.sum_congr rfl fun k _ => ?_
  have el : Read.lidx_main_v92 (ix2 g f) k = ix2 g k := funext fun a => Fin.ext (by
    match a with
    | ⟨0, _⟩ => rfl
    | ⟨1, _⟩ => rfl)
  have er : Read.ridx_main_v92 (ix2 g f) k = ix2 k f := funext fun a => Fin.ext (by
    match a with
    | ⟨0, _⟩ => rfl
    | ⟨1, _⟩ => rfl)
  rw [el, er, Read.val_main_v91_apply, v82_apply, v90_apply, Ideal.hostDivf_def]
  rfl

-- the reference's result: the head of three layers, each a bias over the message-passing step of a product
theorem ref_result (m : (ℓ : Loc nD τ sig) → Buf (Elt Ideal) ℓ) (c : Dev nD) :
    Value.res_out0 (F := Ideal) m c
      = Cert.Spec.head
          (Cert.Spec.biasAdd
            (Agg.agg (F := Ideal) (m ((c.tc : Thread nD τ).loc main_arg1))
              (Cert.Spec.mm
                (Cert.Spec.biasRelu
                  (Agg.agg (F := Ideal) (m ((c.tc : Thread nD τ).loc main_arg1))
                    (Cert.Spec.mm
                      (Cert.Spec.biasRelu
                        (Agg.agg (F := Ideal) (m ((c.tc : Thread nD τ).loc main_arg1))
                          (Cert.Spec.mm (m ((c.tc : Thread nD τ).loc main_arg0)) (m ((c.tc : Thread nD τ).loc main_arg3))))
                        (m ((c.tc : Thread nD τ).loc main_arg4)))
                      (m ((c.tc : Thread nD τ).loc main_arg5))))
                  (m ((c.tc : Thread nD τ).loc main_arg6)))
                (m ((c.tc : Thread nD τ).loc main_arg7))))
            (m ((c.tc : Thread nD τ).loc main_arg8)))
          (m ((c.tc : Thread nD τ).loc main_arg2)) (m ((c.tc : Thread nD τ).loc main_arg9)) (m ((c.tc : Thread nD τ).loc main_arg10)) := by
  show Value.res_main_v95 (F := Ideal) m c = _
  rw [Read.val_main_v95_eq, v95_eq, v79_eq, v76_eq, v63_eq, v62_eq, v58_eq, v45_eq, v44_eq, v40_eq, v27_eq]

end Cert.ReferenceIdeal.RefSide

end
-- ==== Proof.lean ====
import proofs.«407712_j30391188586951_1_alg».proof.Defs
import proofs.«407712_j30391188586951_1_alg».proof.Proof.Gen.Kernel
import proofs.«407712_j30391188586951_1_alg».proof.Proof.Gen.KernelIdeal
import proofs.«407712_j30391188586951_1_alg».proof.Proof.Gen.ReferenceIdeal
import proofs.«407712_j30391188586951_1_alg».proof.Proof.Gen.Pre_finite_inputs
import proofs.«407712_j30391188586951_1_alg».proof.Proof.Frame.Run
import proofs.«407712_j30391188586951_1_alg».proof.Proof.FrameBits.Run
import proofs.«407712_j30391188586951_1_alg».proof.Proof.Value.KernelSide
import proofs.«407712_j30391188586951_1_alg».proof.Proof.Value.RefSide

noncomputable section

namespace Cert.Proof

open Idealize.ShloMosaic Idealize.ShloMosaic.TcCoe Idealize.SL.Sem

-- each kernel frame is the run with its result named, the result forgotten
theorem frame_p : Cert.frame_Kernel (hKernel := Cert.Kernel.Gen.facts) (hPre_finite_inputs := Cert.Pre_finite_inputs.Gen.facts) :=
  fun m ρ _ => (θ_run Cert.Kernel.defs _ _).mono (fun _ h c => (h c).2) (Cert.Kernel.Hand.run_value (F := Bits) m ρ)

theorem frame_pi : Cert.frame_KernelIdeal (hKernelIdeal := Cert.KernelIdeal.Gen.facts) (hPre_finite_inputs := Cert.Pre_finite_inputs.Gen.facts) :=
  fun m ρ _ => (θ_run Cert.KernelIdeal.defs _ _).mono (fun _ h c => (h c).2) (Cert.KernelIdeal.Hand.run_value (F := Ideal) m ρ)

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

-- both programs end at one composition of the launch arguments: three layers of product, message passing and bias, then the pooled head
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.outsF (F := Ideal) m 12 Cert.KernelIdeal.main_v77 c, Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  have hO := Cert.KernelIdeal.Hand.outsF_ok (F := Ideal) m
  beta_reduce
  rw [Cert.KernelIdeal.KernelSide.kernel_result m (Cert.KernelIdeal.Hand.outsF (F := Ideal) m) c
    (hO.o2 c) (hO.o4 c) (hO.o5 c) (hO.o7 c) (hO.o8 c) (hO.o10 c) (hO.o12 c)]
  refine (Cert.ReferenceIdeal.RefSide.ref_result m' c).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
